-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S512x1024 : Shape := ⟨2, ![512, 1024]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x1024 .f32) (main_arg8 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8192x1024 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S512x1024 : Shape := ⟨2, ![512, 1024]⟩
abbrev S512 : Shape := ⟨1, ![512]⟩
abbrev S1x512 : Shape := ⟨2, ![1, 512]⟩
abbrev S8192x512 : Shape := ⟨2, ![8192, 512]⟩
abbrev S1024x1024 : Shape := ⟨2, ![1024, 1024]⟩
abbrev S1024x512 : Shape := ⟨2, ![1024, 512]⟩
abbrev S1x8192 : Shape := ⟨2, ![1, 8192]⟩
abbrev S1x1024 : Shape := ⟨2, ![1, 1024]⟩
abbrev S1024 : Shape := ⟨1, ![1024]⟩
abbrev S1024x1 : Shape := ⟨2, ![1024, 1]⟩
abbrev S_ : Shape := ⟨0, ![]⟩
abbrev S8192x1 : Shape := ⟨2, ![8192, 1]⟩

abbrev nBuf : Space → Nat
  | .hbm => 26
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S1x512, .f32⟩
  | .hbm, ⟨10, _⟩ => ⟨S8192x512, .bf16⟩
  | .hbm, ⟨11, _⟩ => ⟨S1x512, .f32⟩
  | .hbm, ⟨12, _⟩ => ⟨S8192x512, .bf16⟩
  | .hbm, ⟨13, _⟩ => ⟨S1x512, .f32⟩
  | .hbm, ⟨14, _⟩ => ⟨S8192x512, .bf16⟩
  | .hbm, ⟨15, _⟩ => ⟨S1x8192, .f32⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S8192x512, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .bf16⟩
  | .hbm, ⟨25, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .f32⟩
  | .local _ .vmem, ⟨13, _⟩ => ⟨S1024x1024, .f32⟩
  | .local _ .vmem, ⟨14, _⟩ => ⟨S512x1024, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1x1024, .f32⟩
  | .local _ .vmem, ⟨33, _⟩ => ⟨S1x1024, .f32⟩
  | .local _ .vmem, ⟨34, _⟩ => ⟨S1024x512, .f32⟩
  | .local _ .vmem, ⟨35, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def k3_cond1 (i : grid3.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg1 : BitVec 32 := BitVec.ofNat 32 (i 1).val
  let arg0 : BitVec 32 := BitVec.ofNat 32 (i 0).val
  let v3 : BitVec 1 := Scalar.cmpi .slt arg1 arg0
  let v4 : BitVec 32 := Scalar.extui v3
  let c0_i32_1 : BitVec 32 := 0#32
  let v5 : BitVec 1 := Scalar.cmpi .ne v4 c0_i32_1
  v5

def k3_cond3 (i : grid3.Coords) : BitVec 1 :=
  let arg1 : BitVec 32 := BitVec.ofNat 32 (i 1).val
  let arg0 : BitVec 32 := BitVec.ofNat 32 (i 0).val
  let v6 : BitVec 1 := Scalar.cmpi .sgt arg1 arg0
  let v7 : BitVec 32 := Scalar.extui v6
  let c0_i32_2 : BitVec 32 := 0#32
  let v8 : BitVec 1 := Scalar.cmpi .ne v7 c0_i32_2
  v8

def k3_cond4 (i : grid3.Coords) : BitVec 1 :=
  let arg1 : BitVec 32 := BitVec.ofNat 32 (i 1).val
  let arg0 : BitVec 32 := BitVec.ofNat 32 (i 0).val
  let v9 : BitVec 1 := Scalar.cmpi .eq arg1 arg0
  let v10 : BitVec 32 := Scalar.extui v9
  let c0_i32_3 : BitVec 32 := 0#32
  let v11 : BitVec 1 := Scalar.cmpi .ne v10 c0_i32_3
  v11

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 8], ![false, false]⟩

def k4_cond1 (i : grid4.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k4_cond2 (i : grid4.Coords) : BitVec 1 :=
  let arg0 : BitVec 32 := BitVec.ofNat 32 (i 0).val
  let arg1 : BitVec 32 := BitVec.ofNat 32 (i 1).val
  let v3 : BitVec 1 := Scalar.cmpi .slt arg0 arg1
  let v4 : BitVec 32 := Scalar.extui v3
  let c0_i32_1 : BitVec 32 := 0#32
  let v5 : BitVec 1 := Scalar.cmpi .ne v4 c0_i32_1
  v5

def k4_cond3 (i : grid4.Coords) : BitVec 1 :=
  let arg0 : BitVec 32 := BitVec.ofNat 32 (i 0).val
  let arg1 : BitVec 32 := BitVec.ofNat 32 (i 1).val
  let v6 : BitVec 1 := Scalar.cmpi .sgt arg0 arg1
  let v7 : BitVec 32 := Scalar.extui v6
  let c0_i32_2 : BitVec 32 := 0#32
  let v8 : BitVec 1 := Scalar.cmpi .ne v7 c0_i32_2
  v8

def k4_cond4 (i : grid4.Coords) : BitVec 1 :=
  let arg0 : BitVec 32 := BitVec.ofNat 32 (i 0).val
  let arg1 : BitVec 32 := BitVec.ofNat 32 (i 1).val
  let v9 : BitVec 1 := Scalar.cmpi .eq arg0 arg1
  let v10 : BitVec 32 := Scalar.extui v9
  let c0_i32_3 : BitVec 32 := 0#32
  let v11 : BitVec 1 := Scalar.cmpi .ne v10 c0_i32_3
  v11

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x512_S1024x512 : S1024x512.ShapeCasts S1024x512
  transposes_S1024x512_p1_0_S512x1024 : S1024x512.Transposes [1, 0] S512x1024
  reduces_S1024x1024_S1024 : S1024x1024.Reduces [0] S1024
  shapeCasts_S1024_S1x1024 : S1024.ShapeCasts S1x1024
  broadcasts_S1x1024_S1024x1024 : S1x1024.Broadcasts S1024x1024
  iota_S1024x1_d0_w32 : S1024x1.Iotas .tc 32 [0]
  iota_S1x1024_d1_w32 : S1x1024.Iotas .tc 32 [1]
  broadcasts_S1024x1_S1024x1024 : S1024x1.Broadcasts S1024x1024
  bcast_S_S1x8192 : S_.BroadcastsInDim S1x8192 (![] : Fin 0 → Fin S1x8192.rank)
  shapeCasts_S1x8192_S8192x1 : S1x8192.ShapeCasts S8192x1
  bcast_S8192x1_S8192x512_0_1 : S8192x1.BroadcastsInDim S8192x512 (![0, 1] : Fin 2 → Fin S8192x512.rank)
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .bf16 = 32 ∨ (Rect.block (s := S8192x512) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .bf16 = 32 ∨ (Rect.block (s := S8192x512) S1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x8192.size a
  hwx3_2 : ∀ i : grid3.Coords, EltTy.bits .f32 = 32 ∨ (Rect.block (s := S1x8192) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x8192.size a
  hwx3_3 : ∀ i : grid3.Coords, EltTy.bits .f32 = 32 ∨ (Rect.block (s := S1x8192) S1x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .bf16 = 32 ∨ (Rect.block (s := S8192x512) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S8192x512.size a
  hwx4_1 : ∀ i : grid4.Coords, EltTy.bits .bf16 = 32 ∨ (Rect.block (s := S8192x512) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S8192x512.size a
  hwx4_2 : ∀ i : grid4.Coords, EltTy.bits .bf16 = 32 ∨ (Rect.block (s := S8192x512) S1024x512.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x8192.size a
  hwx4_3 : ∀ i : grid4.Coords, EltTy.bits .f32 = 32 ∨ (Rect.block (s := S1x8192) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x512.size a ≤ S8192x512.size a
  hwx4_4 : ∀ i : grid4.Coords, EltTy.bits .f32 = 32 ∨ (Rect.block (s := S8192x512) S1024x512.size (cc4_transform_4 i) (hinb4_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6_0) S1x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6_1) S1x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun i => !(k3_cond1 i == 1#1) && !(k3_cond2 i == 1#1) && !(k3_cond3 i == 1#1) && !(k3_cond4 i == 1#1) | 3 => fun i => !(k3_cond1 i == 1#1) && !(k3_cond2 i == 1#1) && !(k3_cond3 i == 1#1) && !(k3_cond4 i == 1#1) | ⟨_ + 4, h⟩ => absurd h (Nat.not_lt.2 (Nat.le_add_left _ _))

abbrev win4_0 : Pipeline.Window sig grid4 :=
  Pipeline.Window.ofSpec (Memref.whole main_v1) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S1024x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v6_0) S1x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v14) S1024x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond1 i == 1#1) && !(k4_cond2 i == 1#1) && !(k4_cond3 i == 1#1) && !(k4_cond4 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S512x1024 : Shape := ⟨2, ![512, 1024]⟩
abbrev S512 : Shape := ⟨1, ![512]⟩
abbrev S1024x512 : Shape := ⟨2, ![1024, 512]⟩
abbrev S8192x512 : Shape := ⟨2, ![8192, 512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S1024x512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S1024x512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S1024x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S512x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x1024_S1024x512_S8192x512_1_0_0_1_n_n_wf : DotDims.WF S8192x1024 S1024x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KB.SpecLin0.lean ====
import proofs.«404408_j69475390980772_3_alg».proof.Proof.Gen.Kernel.Launch
import proofs.«404408_j69475390980772_3_alg».proof.Proof.Gen.Kernel.Skeleton
import proofs.«404408_j69475390980772_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

def out0_3 (x0 : Vec F S1024x1024 .f32) (x1 : Vec F S512x1024 .f32) (x2 : Vec F S1x512 .f32) : Vec F S1024x512 .bf16 :=
  View.canon [⟨r0_o, k0_pay1 (View.ld x0 r0_x) (View.ld x1 r0_w) (View.ld x2 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.KB.SpecLin1.lean ====
import proofs.«404408_j69475390980772_3_alg».proof.Proof.Gen.Kernel.Launch
import proofs.«404408_j69475390980772_3_alg».proof.Proof.Gen.Kernel.Skeleton
import proofs.«404408_j69475390980772_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1024x1024 := Rect.unit (s := S1024x1024) ![0, 0] S1024x1024.size inb_S1024x1024_S1024x1024_0_0
abbrev r1_w : Rect S512x1024 := Rect.unit (s := S512x1024) ![0, 0] S512x1024.size inb_S512x1024_S512x1024_0_0
abbrev r1_b : Rect S1x512 := Rect.unit (s := S1x512) ![0, 0] S1x512.size inb_S1x512_S1x512_0_0
abbrev r1_o : Rect S1024x512 := Rect.unit (s := S1024x512) ![0, 0] S1024x512.size inb_S1024x512_S1024x512_0_0

def out1_3 (x0 : Vec F S1024x1024 .f32) (x1 : Vec F S512x1024 .f32) (x2 : Vec F S1x512 .f32) : Vec F S1024x512 .bf16 :=
  View.canon [⟨r1_o, k1_pay1 (View.ld x0 r1_x) (View.ld x1 r1_w) (View.ld x2 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.KB.SpecLin2.lean ====
import proofs.«404408_j69475390980772_3_alg».proof.Proof.Gen.Kernel.Launch
import proofs.«404408_j69475390980772_3_alg».proof.Proof.Gen.Kernel.Skeleton
import proofs.«404408_j69475390980772_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x1024 := Rect.unit (s := S1024x1024) ![0, 0] S1024x1024.size inb_S1024x1024_S1024x1024_0_0
abbrev r2_w : Rect S512x1024 := Rect.unit (s := S512x1024) ![0, 0] S512x1024.size inb_S512x1024_S512x1024_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

def out2_3 (x0 : Vec F S1024x1024 .f32) (x1 : Vec F S512x1024 .f32) (x2 : Vec F S1x512 .f32) : Vec F S1024x512 .bf16 :=
  View.canon [⟨r2_o, k2_pay1 (View.ld x0 r2_x) (View.ld x1 r2_w) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.KB.Spec3.lean ====
import proofs.«404408_j69475390980772_3_alg».proof.Proof.Gen.Kernel.Launch
import proofs.«404408_j69475390980772_3_alg».proof.Proof.Gen.Kernel.Skeleton
import proofs.«404408_j69475390980772_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (c : Dev nD) (t : Fin cfg3.N) (prev : Vec F S1x1024 .f32 × Vec F S1x1024 .f32) :
    Vec F S1x1024 .f32 × Vec F S1x1024 .f32 :=
  let p : Vec F S1x1024 .f32 × Vec F S1x1024 .f32 := if t.val % 8 = 0 then (k3_pay1, k3_pay2) else prev
  if t.val % 8 < t.val / 8 then (k3_pay3 p.1, k3_pay4 p.1 p.1 p.2)
  else if t.val / 8 < t.val % 8 then
    (k3_pay6 (iblk3 V c 0 t) (iblk3 V c 1 t) p.1, k3_pay7 (iblk3 V c 0 t) (iblk3 V c 1 t) p.1 p.1 p.2)
  else
    (k3_pay9 (BitVec.ofNat 32 ((grid3.coords t) 0).val) (BitVec.ofNat 32 ((grid3.coords t) 1).val) (iblk3 V c 0 t) (iblk3 V c 1 t) p.1,
     k3_pay10 (BitVec.ofNat 32 ((grid3.coords t) 0).val) (BitVec.ofNat 32 ((grid3.coords t) 1).val) (iblk3 V c 0 t) (iblk3 V c 1 t) p.1 p.1 p.2)

def outsAt3 (c : Dev nD) : (n : ℕ) → n < cfg3.N → Vec F S1x1024 .f32 × Vec F S1x1024 .f32
  | 0, hn => step3 V c ⟨0, hn⟩ (k3_pay1, k3_pay2)
  | n + 1, hn => step3 V c ⟨n + 1, hn⟩ (outsAt3 c n (Nat.lt_of_succ_lt hn))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2 := by dsimp only [dat3]

end Cert.Kernel.Hand

end
-- ==== Proof.KB.Spec4.lean ====
import proofs.«404408_j69475390980772_3_alg».proof.Proof.Gen.Kernel.Launch
import proofs.«404408_j69475390980772_3_alg».proof.Proof.Gen.Kernel.Skeleton
import proofs.«404408_j69475390980772_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def step4 (c : Dev nD) (t : Fin cfg4.N) (prev : Vec F S1024x512 .f32) : Vec F S1024x512 .f32 :=
  let p : Vec F S1024x512 .f32 := if t.val % 8 = 0 then k4_pay1 else prev
  if t.val / 8 < t.val % 8 then k4_pay2 (iblk4 V c 3 t) (iblk4 V c 2 t) p
  else if t.val % 8 < t.val / 8 then k4_pay3 (iblk4 V c 0 t) (iblk4 V c 1 t) (iblk4 V c 3 t) p (iblk4 V c 2 t)
  else k4_pay4 (grid4.coords t) (iblk4 V c 0 t) (iblk4 V c 1 t) (iblk4 V c 3 t) p (iblk4 V c 2 t)

def outsAt4 (c : Dev nD) : (n : ℕ) → n < cfg4.N → Vec F S1024x512 .f32
  | 0, hn => step4 V c ⟨0, hn⟩ k4_pay1
  | n + 1, hn => step4 V c ⟨n + 1, hn⟩ (outsAt4 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outsAt4 V c t.val t.isLt
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outsAt4 V c t.val t.isLt := by dsimp only [dat4]

end Cert.Kernel.Hand

end
-- ==== Proof.KB.RunDefs.lean ====
import proofs.«404408_j69475390980772_3_alg».proof.Proof.KB.SpecLin0
import proofs.«404408_j69475390980772_3_alg».proof.Proof.KB.SpecLin1
import proofs.«404408_j69475390980772_3_alg».proof.Proof.KB.SpecLin2
import proofs.«404408_j69475390980772_3_alg».proof.Proof.KB.Spec3
import proofs.«404408_j69475390980772_3_alg».proof.Proof.KB.Spec4

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

-- where every window whose array is b ends at the contents it began with, b's contents at the region's exit are those at its entry
theorem keepArr {gr W : Nat} (spec : Fin W → Pipeline.WinSpec sig gr) (hinj : Function.Injective (Pipeline.arrRef spec)) (c : Dev nD)
    (V : Valuation τ sig (Elt F)) (A : (w : Fin W) → Buf (Elt F) ((spec w).arr.view.loc (c : Thread nD τ))) (b : Ref sig .tc)
    (h : ∀ w, Pipeline.arrRef spec w = b → A w = V (Proc.devRef .tc (Pipeline.arrRef spec w))) :
    Pipeline.withArrays spec c V A (Proc.devRef .tc b) = V (Proc.devRef .tc b) := by
  by_cases hb : ∃ w, Pipeline.arrRef spec w = b
  · obtain ⟨w, rfl⟩ := hb; exact (Pipeline.withArrays_arr spec hinj c V A w).trans (h w rfl)
  · exact Pipeline.withArrays_of_ne spec c V A b fun w e => hb ⟨w, e⟩

theorem W2_keep (c : Dev nD) (b : Ref sig .tc) (hb : main_v1 ≠ b) : W2 m ρ c (Proc.devRef .tc b) = W1 m ρ c (Proc.devRef .tc b) := by
  unfold W2
  exact keepArr spec0 launch0.win.arr_inj c _ _ b fun w e => ((dat0 (V1 m ρ) c).arrAt_in w
    ((by decide : ∀ w : Fin cfg0.W, Pipeline.arrRef spec0 w ≠ main_v1 → (cfg0.win w).isOut = false) w fun h => hb (h.symm.trans e)) _).trans
    (A_eq0 (V1 m ρ) c w)
theorem W4_keep (c : Dev nD) (b : Ref sig .tc) (hb : main_v3 ≠ b) : W4 m ρ c (Proc.devRef .tc b) = W3 m ρ c (Proc.devRef .tc b) := by
  unfold W4
  exact keepArr spec1 launch1.win.arr_inj c _ _ b fun w e => ((dat1 (V3 m ρ) c).arrAt_in w
    ((by decide : ∀ w : Fin cfg1.W, Pipeline.arrRef spec1 w ≠ main_v3 → (cfg1.win w).isOut = false) w fun h => hb (h.symm.trans e)) _).trans
    (A_eq1 (V3 m ρ) c w)
theorem W6_keep (c : Dev nD) (b : Ref sig .tc) (hb : main_v5 ≠ b) : W6 m ρ c (Proc.devRef .tc b) = W5 m ρ c (Proc.devRef .tc b) := by
  unfold W6
  exact keepArr spec2 launch2.win.arr_inj c _ _ b fun w e => ((dat2 (V5 m ρ) c).arrAt_in w
    ((by decide : ∀ w : Fin cfg2.W, Pipeline.arrRef spec2 w ≠ main_v5 → (cfg2.win w).isOut = false) w fun h => hb (h.symm.trans e)) _).trans
    (A_eq2 (V5 m ρ) c w)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c

end Cert.Kernel.Hand

end
-- ==== Proof.KB.LinBody.lean ====
import proofs.«404408_j69475390980772_3_alg».proof.Proof.KB.SpecLin0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the three projections run one body, up to the payload of its one store
def linSkel (pay : Vec F S1024x1024 .f32 → Vec F S512x1024 .f32 → Vec F S1x512 .f32 → FVec F S1024x512 .bf16)
    (arg1 : Memref sig .tc .vmem S1024x1024 .f32) (harg1 : arg1.IsWhole) (arg2 : Memref sig .tc .vmem S512x1024 .f32) (harg2 : arg2.IsWhole)
    (arg3 : Memref sig .tc .vmem S1x512 .f32) (harg3 : arg3.IsWhole) (arg4 : Memref sig .tc .vmem S1024x512 .bf16) (harg4 : arg4.IsWhole) :
    Prog (TpuEff nD τ sig (Elt F) Λ₀ .tc) PUnit := do
  let v0 : Vec F S1024x1024 .f32 ← Prog.lift (.load arg1 (Rect.unit (s := S1024x1024) ![0, 0] S1024x1024.size inb_S1024x1024_S1024x1024_0_0).toLoadRect (View.loadsAt_vmem h_S1024x1024))
  let v2 : Vec F S512x1024 .f32 ← Prog.lift (.load arg2 (Rect.unit (s := S512x1024) ![0, 0] S512x1024.size inb_S512x1024_S512x1024_0_0).toLoadRect (View.loadsAt_vmem h_S512x1024))
  let v6 : Vec F S1x512 .f32 ← Prog.lift (.load arg3 (Rect.unit (s := S1x512) ![0, 0] S1x512.size inb_S1x512_S1x512_0_0).toLoadRect (View.loadsAt_vmem h_S1x512))
  let v13 : Vec F S1024x512 .bf16 ← Prog.lift (.load arg4 (Rect.unit (s := S1024x512) ![0, 0] S1024x512.size inb_S1024x512_S1024x512_0_0).toLoadRect (View.loadsAt_vmem h_S1024x512))
  Prog.lift (.store arg4 (Rect.unit (s := S1024x512) ![0, 0] S1024x512.size inb_S1024x512_S1024x512_0_0) (pay v0 v2 v6) Finset.univ (View.stores_vmem h_S1024x512 (harg4.storeExact_slice rfl _ packedbf16_S1024x512_S1024x512_0_0) (fun _ => rfl)) (.inl rfl))
  pure ⟨⟩

abbrev linOut (pay : Vec F S1024x1024 .f32 → Vec F S512x1024 .f32 → Vec F S1x512 .f32 → FVec F S1024x512 .bf16)
    (xa : Vec F S1024x1024 .f32) (xb : Vec F S512x1024 .f32) (xc : Vec F S1x512 .f32) : Vec F S1024x512 .bf16 :=
  View.canon [⟨r0_o, pay (View.ld xa r0_x) (View.ld xb r0_w) (View.ld xc r0_b)⟩]

-- the store's rectangle is the whole block, so what the output buffer held before does not survive
theorem lin_body {Da Db Dc Dd : Type} (pay : Vec F S1024x1024 .f32 → Vec F S512x1024 .f32 → Vec F S1x512 .f32 → FVec F S1024x512 .bf16)
    (c : Dev nD) (P O : sProp 𝕄)
    (ma : Memref sig .tc .vmem S1024x1024 .f32) (hma : ma.IsWhole) (mb : Memref sig .tc .vmem S512x1024 .f32) (hmb : mb.IsWhole)
    (mc : Memref sig .tc .vmem S1x512 .f32) (hmc : mc.IsWhole) (md : Memref sig .tc .vmem S1024x512 .bf16) (hmd : md.IsWhole)
    (xa : Vec F S1024x1024 .f32) (xb : Vec F S512x1024 .f32) (xc : Vec F S1x512 .f32) (f : Dd → Vec F S1024x512 .bf16) :
    iprop(P ∗ O ∗ (∃ _ : Da, owns (c : Thread nD τ) ma fullShare xa) ∗ (∃ _ : Db, owns (c : Thread nD τ) mb fullShare xb)
        ∗ (∃ _ : Dc, owns (c : Thread nD τ) mc fullShare xc) ∗ (∃ d : Dd, owns (c : Thread nD τ) md fullShare (f d)))
      ⊢ wp frame (wpE (defs₀ (F := F)) Variants.none c none) Set.univ (linSkel pay ma hma mb hmb mc hmc md hmd)
          (fun _ => iprop(P ∗ O ∗ owns (c : Thread nD τ) ma fullShare xa ∗ owns (c : Thread nD τ) mb fullShare xb
            ∗ owns (c : Thread nD τ) mc fullShare xc ∗ owns (c : Thread nD τ) md fullShare (linOut pay xa xb xc))) := by
  unfold linSkel owns
  iintro ⟨HP, HO, ⟨%da, %fa, %hfa, Ha⟩, ⟨%db, %fb, %hfb, Hb⟩, ⟨%dc, %fc, %hfc, Hc⟩, ⟨%dd, %fd, -, Hd⟩⟩
  subst hfa; subst hfb; subst hfc
  sl_exec
  sl_step
  isplitl [HP]; · iexact HP
  isplitl [HO]; · iexact HO
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (View.cover_of_tiled [⟨r0_o, _⟩] S1024x512.size (by rfl))

end Cert.Kernel.Hand

end
-- ==== Proof.KB.Lin0.lean ====
import proofs.«404408_j69475390980772_3_alg».proof.Proof.KB.LinBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  simp only [before0_0, before0_1, before0_2, cc0__linear_kernel_eq_skeleton]
  rw [after0_0, after0_1, after0_2, after0_3]
  exact lin_body k0_pay1 c _ _ (st0_0 t) (hstage0_0 _) (st0_1 t) (hstage0_1 _) (st0_2 t) (hstage0_2 _) (st0_3 t) (hstage0_3 _) _ _ _ _

end Cert.Kernel.Hand

end
-- ==== Proof.KB.Lin1.lean ====
import proofs.«404408_j69475390980772_3_alg».proof.Proof.KB.LinBody
import proofs.«404408_j69475390980772_3_alg».proof.Proof.KB.SpecLin1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  simp only [before1_0, before1_1, before1_2, cc1__linear_kernel_eq_skeleton]
  rw [after1_0, after1_1, after1_2, after1_3]
  exact lin_body k1_pay1 c _ _ (st1_0 t) (hstage1_0 _) (st1_1 t) (hstage1_1 _) (st1_2 t) (hstage1_2 _) (st1_3 t) (hstage1_3 _) _ _ _ _

end Cert.Kernel.Hand

end
-- ==== Proof.KB.Lin2.lean ====
import proofs.«404408_j69475390980772_3_alg».proof.Proof.KB.LinBody
import proofs.«404408_j69475390980772_3_alg».proof.Proof.KB.SpecLin2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  simp only [before2_0, before2_1, before2_2, cc2__linear_kernel_eq_skeleton]
  rw [after2_0, after2_1, after2_2, after2_3]
  exact lin_body k2_pay1 c _ _ (st2_0 t) (hstage2_0 _) (st2_1 t) (hstage2_1 _) (st2_2 t) (hstage2_2 _) (st2_3 t) (hstage2_3 _) _ _ _ _

end Cert.Kernel.Hand

end
-- ==== Proof.KB.StatsRuns.lean ====
import proofs.«404408_j69475390980772_3_alg».proof.Proof.KB.Spec3
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev r3_m : Rect S1x1024 := Rect.unit (s := S1x1024) ![0, 0] S1x1024.size inb_S1x1024_S1x1024_0_0

-- the last store covers the whole row, so the row reads as its payload
theorem read_store3 {κ : Kind} {sp : Space} (v : View sig κ sp S1x1024 .f32) (f : v.ty.Contents (Elt F)) (p : Vec F S1x1024 .f32)
    (L : List (View.Piece (Elt F) S1x1024 .f32)) :
    v.read (Elt F) (v.writes (Elt F) f ((⟨r3_m, p⟩ : View.Piece (Elt F) S1x1024 .f32) :: L)) = p := by
  rw [View.read_writes_eq_canon _ _ _ fun y => ⟨_, List.mem_cons_self, View.mem_set_unit_zero hz3 inb_S1x1024_S1x1024_0_0 y⟩,
    View.canon_cons_unit_zero hz3]

-- the carried pair after the body's conditionals: restart, then the tile above, below or on the diagonal
def stp3 (i : grid3.Coords) (q k : Vec F S1024x512 .bf16) (p : Vec F S1x1024 .f32 × Vec F S1x1024 .f32) :
    Vec F S1x1024 .f32 × Vec F S1x1024 .f32 :=
  let p : Vec F S1x1024 .f32 × Vec F S1x1024 .f32 := if k3_cond1 i = 1#1 then (k3_pay1, k3_pay2) else p
  if k3_cond2 i = 1#1 then (k3_pay3 p.1, k3_pay4 p.1 p.1 p.2)
  else if k3_cond3 i = 1#1 then (k3_pay6 q k p.1, k3_pay7 q k p.1 p.1 p.2)
  else (k3_pay9 (BitVec.ofNat 32 (i 0).val) (BitVec.ofNat 32 (i 1).val) q k p.1,
    k3_pay10 (BitVec.ofNat 32 (i 0).val) (BitVec.ofNat 32 (i 1).val) q k p.1 p.1 p.2)

-- over the grid the four conditions occur in five combinations only
theorem cases3 : ∀ i : grid3.Coords,
    (k3_cond1 i = 1#1 ∧ ¬k3_cond2 i = 1#1 ∧ ¬k3_cond3 i = 1#1 ∧ k3_cond4 i = 1#1) ∨
    (k3_cond1 i = 1#1 ∧ k3_cond2 i = 1#1 ∧ ¬k3_cond3 i = 1#1 ∧ ¬k3_cond4 i = 1#1) ∨
    (¬k3_cond1 i = 1#1 ∧ k3_cond2 i = 1#1 ∧ ¬k3_cond3 i = 1#1 ∧ ¬k3_cond4 i = 1#1) ∨
    (¬k3_cond1 i = 1#1 ∧ ¬k3_cond2 i = 1#1 ∧ k3_cond3 i = 1#1 ∧ ¬k3_cond4 i = 1#1) ∨
    (¬k3_cond1 i = 1#1 ∧ ¬k3_cond2 i = 1#1 ∧ ¬k3_cond3 i = 1#1 ∧ k3_cond4 i = 1#1) := by decide +kernel

-- each load and store spans the whole of its array, so the body takes the pair (m0, l0) to its step, in each combination
theorem run3 {c : Dev nD} {E : Set ℕ} {i : grid3.Coords} {arg2 arg3 : Memref sig .tc .vmem S1024x512 .bf16} {arg4 arg5 : Memref sig .tc .vmem S1x1024 .f32}
    {harg2 : arg2.IsWhole} {harg3 : arg3.IsWhole} {harg4 : arg4.IsWhole} {harg5 : arg5.IsWhole}
    {q k : Vec F S1024x512 .bf16} {m0 l0 : Vec F S1x1024 .f32} {K : PUnit → sProp 𝕄} :
    iprop(owns c.tc arg2 fullShare q ∗ owns c.tc arg3 fullShare k ∗ owns c.tc arg4 fullShare m0 ∗ owns c.tc arg5 fullShare l0
        ∗ (iprop(owns c.tc arg2 fullShare q ∗ owns c.tc arg3 fullShare k
            ∗ owns c.tc arg4 fullShare (stp3 i q k (m0, l0)).1 ∗ owns c.tc arg5 fullShare (stp3 i q k (m0, l0)).2) -∗ K ⟨⟩))
      ⊢ wp frame (wpE (defs₀ (F := F)) Variants.none c none) E (cc3__stats_kernel i arg2 harg2 arg3 harg3 arg4 harg4 arg5 harg5) K := by
  simp only [cc3__stats_kernel_eq_skeleton]; unfold cc3__stats_kernel_skel owns
  iintro ⟨⟨%f2, %hf2, H2⟩, ⟨%f3, %hf3, H3⟩, ⟨%f4, %hf4, H4⟩, ⟨%f5, %hf5, H5⟩, Hk⟩
  subst hf2 hf3 hf4 hf5
  rcases cases3 i with h | h | h | h | h <;> obtain ⟨h1, h2, h3, h4⟩ := h
  all_goals
    sl_exec (disch := first | exact h1 | exact h2 | exact h3 | exact h4)
    sl_step
    iapply Hk
    isplitl [H2]; swap; isplitl [H3]; swap; isplitl [H4]
    all_goals
      iexists _; isplitr; swap; · first | iexact H2 | iexact H3 | iexact H4 | iexact H5
      ipureintro
      try rw [read_store3]
      try sl_unfold_run_names
      simp only [stp3, h1, h2, h3, h4, ↓reduceIte, View.readAt_eq_ld, View.ld_unit_zero (S := S1024x512) hz3, View.ld_unit_zero (S := S1x1024) hz3,
        View.readCov_unit_zero (S := S1x1024) _ hz3] <;> rfl

end Cert.Kernel.Hand

end
-- ==== Proof.KB.Stats.lean ====
import proofs.«404408_j69475390980772_3_alg».proof.Proof.KB.StatsRuns

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond3 : ∀ t : Fin grid3.N, (k3_cond1 (grid3.coords t) = 1#1 ↔ t.val % 8 = 0)
    ∧ (k3_cond2 (grid3.coords t) = 1#1 ↔ t.val % 8 < t.val / 8) ∧ (k3_cond3 (grid3.coords t) = 1#1 ↔ t.val / 8 < t.val % 8) := by
  decide +kernel

theorem live3 : ∀ (w : Fin 4) (i : grid3.Coords), idle3 w i = false := by decide +kernel

theorem step3_eq (c : Dev nD) (t : Fin cfg3.N) (p : Vec F S1x1024 .f32 × Vec F S1x1024 .f32) :
    step3 V c t p = stp3 (grid3.coords t) (iblk3 V c 0 t) (iblk3 V c 1 t) p := by
  unfold step3 stp3; simp only [hcond3 t]

theorem before3_in (c : Dev nD) (t : Fin cfg3.N) :
    (∀ d, (dat3 V c).before 0 t d = iblk3 V c 0 t) ∧ ∀ d, (dat3 V c).before 1 t d = iblk3 V c 1 t := by
  refine ⟨fun d => ?_, fun d => ?_⟩ <;>
  exact (dat3 V c).before_in_eq_fetched _ rfl (fun _ => rfl) (fun _ _ _ => rfl) (fun _ => rfl) t d

-- the carried pair at a point is the step of the pair the output rows held there
theorem outs3_eq (c : Dev nD) (t : Fin cfg3.N) (d2) (d3) :
    outsAt3 V c t.val t.isLt = step3 V c t ((dat3 V c).before 2 t d2, (dat3 V c).before 3 t d3) := by
  by_cases h0 : t.val % 8 = 0
  · obtain ⟨_ | n, hn⟩ := t <;> (show step3 V c _ _ = _; unfold step3; simp only [if_pos h0, ↓reduceIte])
  · have e : ((dat3 V c).before 2 t d2, (dat3 V c).before 3 t d3) = outsAt3 V c (t.val - 1) (by omega) := by
      refine Prod.ext ?_ ?_ <;> dsimp only <;> exact (dat3 V c).before_out_kept _ rfl t (by omega) (Bool.eq_false_iff.mpr fun h => by
        (first | have := (flush3_2 _).mp h | have := (flush3_3 _).mp h); dsimp only at this; omega) (live3 _) (fun _ _ => rfl) _
    rw [e]; obtain ⟨_ | n, hn⟩ := t
    · exact absurd rfl h0
    · rfl

theorem body_obligation3 (c : Dev nD) : BodyObligation (dat3 (F := F) V c) (defs₀ (F := F)) Variants.none () Set.univ := fun t => by
  rw [bigSep_W3, bigSep_W3]
  show _ ⊢ wp frame _ _ (bodyAt3 t) fun _ => iprop((dat3 V c).Φ t.castSucc ∗ (dat3 V c).owesAt () t.castSucc ∗ _)
  simp only [before3_in V c t, after3_0, after3_1, after3_2, after3_3]
  rw [live3]; dsimp only
  iintro ⟨HΦ, Ho, ⟨%d0, H0⟩, ⟨%d1, H1⟩, ⟨%d2, H2⟩, ⟨%d3, H3⟩⟩
  rw [outs3_eq V c t d2 d3, step3_eq]
  iapply run3
  iframe
  iintro ⟨H0, H1, H2, H3⟩
  iframe

end Cert.Kernel.Hand

end
-- ==== Proof.KB.OutRunA.lean ====
import proofs.«404408_j69475390980772_3_alg».proof.Proof.KB.Spec4
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A write over the whole shape, made last, decides every element read afterwards.
theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0) (inb : ∀ a, off a + S.size a ≤ S.size a)
    (w : S.Idx → Val e) (L : List (View.Piece Val S e)) : v.read Val (v.writes Val f (⟨Rect.unit off S.size inb, w⟩ :: L)) = w :=
  (View.read_writes_eq_canon v f _ fun y => ⟨_, List.mem_cons_self, View.mem_set_unit_zero h inb y⟩).trans (View.canon_cons_unit_zero h inb w L)

-- Two tile numbers stand in exactly one of the three orders, and nothing is less than zero.
theorem excl4 (i : grid4.Coords) : (k4_cond1 i = 1#1 → ¬k4_cond2 i = 1#1)
    ∧ ((k4_cond2 i = 1#1 ∧ ¬k4_cond3 i = 1#1 ∧ ¬k4_cond4 i = 1#1) ∨ (¬k4_cond2 i = 1#1 ∧ k4_cond3 i = 1#1 ∧ ¬k4_cond4 i = 1#1)
      ∨ (¬k4_cond2 i = 1#1 ∧ ¬k4_cond3 i = 1#1 ∧ k4_cond4 i = 1#1)) := by
  dsimp only [k4_cond1, k4_cond2, k4_cond3, k4_cond4]
  generalize i 0 = a; generalize i 1 = b; revert a b; decide +kernel

-- Zero at column tile 0, else the block carried in; then the one update that the order of row and column tile selects.
def out4 (i : grid4.Coords) (q k : Vec F S1024x512 .bf16) (mrow : Vec F S1x1024 .f32) (o : Vec F S1024x512 .f32)
    (vs : Vec F S1024x512 .bf16) : Vec F S1024x512 .f32 :=
  let p : Vec F S1024x512 .f32 := if k4_cond1 i = 1#1 then k4_pay1 else o
  if k4_cond2 i = 1#1 then k4_pay2 mrow vs p else if k4_cond3 i = 1#1 then k4_pay3 q k mrow p vs else k4_pay4 i q k mrow p vs

theorem run4 (c : Dev nD) (i : grid4.Coords) {arg2 arg3 arg4 : Memref sig .tc .vmem S1024x512 .bf16} {arg5 : Memref sig .tc .vmem S1x1024 .f32}
    {arg6 : Memref sig .tc .vmem S1024x512 .f32} {harg2 : arg2.IsWhole} {harg3 : arg3.IsWhole} {harg4 : arg4.IsWhole} {harg5 : arg5.IsWhole}
    {harg6 : arg6.IsWhole} (q k vs : Vec F S1024x512 .bf16) (mrow : Vec F S1x1024 .f32) (o : Vec F S1024x512 .f32) {E : Set ℕ} {K : PUnit → sProp 𝕄} :
    iprop(owns (c : Thread nD τ) arg2 fullShare q ∗ owns (c : Thread nD τ) arg3 fullShare k ∗ owns (c : Thread nD τ) arg4 fullShare vs
        ∗ owns (c : Thread nD τ) arg5 fullShare mrow ∗ owns (c : Thread nD τ) arg6 fullShare o
        ∗ (iprop(owns (c : Thread nD τ) arg2 fullShare q ∗ owns (c : Thread nD τ) arg3 fullShare k ∗ owns (c : Thread nD τ) arg4 fullShare vs
            ∗ owns (c : Thread nD τ) arg5 fullShare mrow ∗ owns (c : Thread nD τ) arg6 fullShare (out4 i q k mrow o vs)) -∗ K ⟨⟩))
      ⊢ wp frame (wpE (defs₀ (F := F)) Variants.none c none) E (cc4__out_kernel i arg2 harg2 arg3 harg3 arg4 harg4 arg5 harg5 arg6 harg6) K := by
  simp only [cc4__out_kernel_eq_skeleton]; unfold cc4__out_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  have hz : (![0, 0] : Fin 2 → Nat) = fun _ => 0 := funext fun a => by fin_cases a <;> rfl
  obtain ⟨h12, ⟨h2, h3, h4⟩ | ⟨h2, h3, h4⟩ | ⟨h2, h3, h4⟩⟩ := excl4 i <;> by_cases h1 : k4_cond1 i = 1#1 <;> first | exact absurd h2 (h12 h1) |
    sl_exec (disch := first | exact h1 | exact h2 | exact h3 | exact h4)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap; · iexact H6
    ipureintro
    try sl_unfold_run_names
    rw [read_writes_unit_zero _ _ hz]
    simp only [out4, h1, h2, h3, h4, ↓reduceIte, View.readAt_eq_ld, hf2, hf3, hf4, hf5, hf6, View.ld_unit_zero (S := S1024x512) hz,
      View.ld_unit_zero (S := S1x1024) hz, View.readCov_unit_zero (S := S1024x512) _ hz]

end Cert.Kernel.Hand

end
-- ==== Proof.KB.OutK.lean ====
import proofs.«404408_j69475390980772_3_alg».proof.Proof.KB.OutRunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond4 : ∀ t : Fin grid4.N, (k4_cond1 (grid4.coords t) = 1#1 ↔ t.val % 8 = 0)
    ∧ (k4_cond2 (grid4.coords t) = 1#1 ↔ t.val / 8 < t.val % 8) ∧ (k4_cond3 (grid4.coords t) = 1#1 ↔ t.val % 8 < t.val / 8) := by
  decide +kernel

theorem hlive4_4 (i : cfg4.grid.Coords) : cfg4.idle 4 i = false := by
  rcases (excl4 i).2 with ⟨h, -⟩ | ⟨-, h, -⟩ | ⟨-, -, h⟩ <;> simp [idle4, h]

theorem step4_eq (c : Dev nD) (t : Fin cfg4.N) (prev : Vec F S1024x512 .f32) :
    step4 V c t prev = out4 (grid4.coords t) (iblk4 V c 0 t) (iblk4 V c 1 t) (iblk4 V c 3 t) prev (iblk4 V c 2 t) := by
  unfold step4 out4; simp only [(hcond4 t).1, (hcond4 t).2.1, (hcond4 t).2.2]

-- At column tile 0 the update starts from zero, whatever was carried.
theorem step4_restart (c : Dev nD) (t : Fin cfg4.N) (h0 : t.val % 8 = 0) (p p' : Vec F S1024x512 .f32) :
    step4 V c t p = step4 V c t p' := by
  unfold step4; dsimp only; rw [if_pos h0, if_pos h0]

theorem before4_in (c : Dev nD) (w : Fin cfg4.W) (hw : w ≠ 4) (t : Fin cfg4.N) (d) : (dat4 V c).before w t d = (dat4 V c).after w t := by
  fin_cases w <;> first | exact absurd rfl hw |
    exact ((dat4 V c).before_in_eq_fetched _ rfl (fun _ => rfl) (fun _ _ _ => rfl) (fun _ => rfl) t d).trans rfl

-- Away from column tile 0 the update starts from what the point before left.
theorem outsAt4_eq (c : Dev nD) (t : Fin cfg4.N) (d) : outsAt4 V c t.val t.isLt = step4 V c t ((dat4 V c).before 4 t d) := by
  by_cases h0 : t.val % 8 = 0
  · obtain ⟨_ | n, hn⟩ := t <;> exact step4_restart V c _ h0 _ _
  · rw [Dat.before_out_kept _ 4 rfl t (by omega)
      (Bool.eq_false_iff.mpr fun h => by have := (flush4_4 _).mp h; dsimp only at this; omega) hlive4_4 (fun _ _ => rfl), after4_4]
    obtain ⟨_ | n, hn⟩ := t
    · exact absurd rfl h0
    · rfl

theorem body_obligation4 (c : Dev nD) : BodyObligation (dat4 (F := F) V c) (defs₀ (F := F)) Variants.none () Set.univ := fun t => by
  rw [bigSep_W4, bigSep_W4]
  have hl : idle4 4 (grid4.coords t) = false := hlive4_4 _
  simp (disch := decide) only [hl, before4_in]
  rw [after4_0, after4_1, after4_2, after4_3, after4_4]
  change _ ⊢ wp _ _ _ (bodyAt4 t) _
  iintro ⟨HΦ, Ho, ⟨%d0, H0⟩, ⟨%d1, H1⟩, ⟨%d2, H2⟩, ⟨%d3, H3⟩, ⟨%d4, H4⟩⟩
  rw [outsAt4_eq V c t d4, step4_eq]
  iapply run4 c (grid4.coords t) (iblk4 V c 0 t) (iblk4 V c 1 t) (iblk4 V c 2 t) (iblk4 V c 3 t)
  iframe
  iintro ⟨H0, H1, H2, H3, H4⟩
  iframe
  istop; exact Entails.refl _

end Cert.Kernel.Hand

end
-- ==== Proof.KB.Run.lean ====
import proofs.«404408_j69475390980772_3_alg».proof.Proof.KB.RunDefs
import proofs.«404408_j69475390980772_3_alg».proof.Proof.KB.Lin0
import proofs.«404408_j69475390980772_3_alg».proof.Proof.KB.Lin1
import proofs.«404408_j69475390980772_3_alg».proof.Proof.KB.Lin2
import proofs.«404408_j69475390980772_3_alg».proof.Proof.KB.Stats
import proofs.«404408_j69475390980772_3_alg».proof.Proof.KB.OutK
import proofs.«404408_j69475390980772_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

theorem pd (p : Fin 5) : ∀ c : Dev nD, (∀ w, (pdats m ρ p c).q w = fullShare) ∧ (∀ i, (pdats m ρ p c).Φ i = Pipeline.ΦA (cfgs p).spec c)
    ∧ (∀ t, (pdats m ρ p c).owed t = 0) ∧ ∀ x, x ∈ (pdats m ρ p c).recorded 0 := by
  fin_cases p <;> exact fun _ => ⟨fun _ => rfl, fun _ => rfl, fun _ => rfl, fun _ => trivial⟩

set_option backward.isDefEq.respectTransparency.types false in
def regOf (p : Fin 5) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (hA : ∀ c w, (pdats m ρ p c).A w = Wi c (Proc.devRef .tc (Pipeline.arrRef (cfgs p).spec w)))
    (harr : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pd m ρ p c).2.2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (pd m ρ p c).1) (fun b => Wi c b) (hA c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [(pd m ρ p c).2.2.1 0]
    icases HO with ⟨%W, HO⟩; iexists W; isplitr; · ipureintro; exact fun x _ => Or.inl ((pd m ρ p c).2.2.2 x)
    iexact HO
  hin c := by
    rw [(pd m ρ p c).2.1 0]; unfold Pipeline.ΦA
    iintro ⟨Hp, -, Hr⟩
    iframe
  hout c := by
    rw [Pipeline.ownSems0_none, (pd m ρ p c).2.1 (Fin.last _)]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full (pd m ρ p c).1)
      (fun b => Wi c b) (fun b => Wo c b) ((pdats m ρ p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(pd m ρ p c).2.2.1 (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (regOf m ρ 0 launch0 (W1 m ρ) (W2 m ρ) (body_obligation0 (V1 m ρ)) (fun _ _ => rfl) (W2_arr m ρ) (W2_of_ne m ρ)),
    .host (hseg hostOps1 hostOps1_sub hostOps1_fresh (W2 m ρ)),
    .region (regOf m ρ 1 launch1 (W3 m ρ) (W4 m ρ) (body_obligation1 (V3 m ρ)) (fun _ _ => rfl) (W4_arr m ρ) (W4_of_ne m ρ)),
    .host (hseg hostOps2 hostOps2_sub hostOps2_fresh (W4 m ρ)),
    .region (regOf m ρ 2 launch2 (W5 m ρ) (W6 m ρ) (body_obligation2 (V5 m ρ)) (fun _ _ => rfl) (W6_arr m ρ) (W6_of_ne m ρ)),
    .region (regOf m ρ 3 launch3 (W6 m ρ) (W7 m ρ) (body_obligation3 (V6 m ρ)) (fun _ _ => rfl) (W7_arr m ρ) (W7_of_ne m ρ)),
    .host (hseg hostOps4 hostOps4_sub hostOps4_fresh (W7 m ρ)),
    .region (regOf m ρ 4 launch4 (W8 m ρ) (W9 m ρ) (body_obligation4 (V8 m ρ)) (fun _ _ => rfl) (W9_arr m ρ) (W9_of_ne m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      iframe)
    (hQ := fun s h c => h c)

abbrev args : List (Ref sig .tc) :=
  [main_arg0, main_arg1, main_arg2, main_arg3, main_arg4, main_arg5, main_arg6, main_arg7, main_arg8]

theorem args_far : ∀ b ∈ args, ¬ (Proc.devRef .tc b : DevRef τ sig).isScoped ∧ (∀ w, Pipeline.arrRef spec4 w ≠ b)
    ∧ b ∉ (hostOps4_W : List (Ref sig .tc)) ∧ (∀ w, Pipeline.arrRef spec3 w ≠ b) ∧ main_v5 ≠ b
    ∧ b ∉ (hostOps2_W : List (Ref sig .tc)) ∧ main_v3 ≠ b ∧ b ∉ (hostOps1_W : List (Ref sig .tc)) ∧ main_v1 ≠ b
    ∧ b ∉ (hostOps0_W : List (Ref sig .tc)) := by decide

-- an argument is written by no host stretch and is no region's output, so the last contents are the launch's
theorem W9_arg (c : Dev nD) (b : Ref sig .tc) (hb : b ∈ args) :
    W9 m ρ c (Proc.devRef .tc b) = m ((c : Thread nD τ).loc b) := by
  obtain ⟨-, h9, h8, h7, h6, h5, h4, h3, h2, h1⟩ := args_far b hb
  exact (W9_of_ne m ρ c b h9).trans <| (StableHlo.after_of_writes_sub hostOps4 _ hostOps4_writes h8).trans <|
    (W7_of_ne m ρ c b h7).trans <| (W6_keep m ρ c b h6).trans <|
    (StableHlo.after_of_writes_sub hostOps2 _ hostOps2_writes h5).trans <| (W4_keep m ρ c b h4).trans <|
    (StableHlo.after_of_writes_sub hostOps1 _ hostOps1_writes h3).trans <| (W2_keep m ρ c b h2).trans <|
    StableHlo.after_of_writes_sub hostOps0 _ hostOps0_writes h1

theorem run_out : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k : ∀ b ∈ args, r.2.mem ((c.tc : Thread nD τ).loc b) = m ((c.tc : Thread nD τ).loc b) := fun b hb =>
      (h c _ (mem_uc b (args_far b hb).1)).trans (W9_arg m ρ c b hb)
    ⟨h c _ (mem_uc main_v14 (by decide)), k _ (by decide), k _ (by decide), k _ (by decide), k _ (by decide),
      k _ (by decide), k _ (by decide), k _ (by decide), k _ (by decide), k _ (by decide)⟩) (run_all m ρ)

end Cert.Kernel.Hand

end
-- ==== Proof.KI.SpecLin0.lean ====
import proofs.«404408_j69475390980772_3_alg».proof.Proof.Gen.KernelIdeal.Launch
import proofs.«404408_j69475390980772_3_alg».proof.Proof.Gen.KernelIdeal.Skeleton
import proofs.«404408_j69475390980772_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

def out0_3 (x0 : Vec F S1024x1024 .f32) (x1 : Vec F S512x1024 .f32) (x2 : Vec F S1x512 .f32) : Vec F S1024x512 .bf16 :=
  View.canon [⟨r0_o, k0_pay1 (View.ld x0 r0_x) (View.ld x1 r0_w) (View.ld x2 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.SpecLin1.lean ====
import proofs.«404408_j69475390980772_3_alg».proof.Proof.Gen.KernelIdeal.Launch
import proofs.«404408_j69475390980772_3_alg».proof.Proof.Gen.KernelIdeal.Skeleton
import proofs.«404408_j69475390980772_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1024x1024 := Rect.unit (s := S1024x1024) ![0, 0] S1024x1024.size inb_S1024x1024_S1024x1024_0_0
abbrev r1_w : Rect S512x1024 := Rect.unit (s := S512x1024) ![0, 0] S512x1024.size inb_S512x1024_S512x1024_0_0
abbrev r1_b : Rect S1x512 := Rect.unit (s := S1x512) ![0, 0] S1x512.size inb_S1x512_S1x512_0_0
abbrev r1_o : Rect S1024x512 := Rect.unit (s := S1024x512) ![0, 0] S1024x512.size inb_S1024x512_S1024x512_0_0

def out1_3 (x0 : Vec F S1024x1024 .f32) (x1 : Vec F S512x1024 .f32) (x2 : Vec F S1x512 .f32) : Vec F S1024x512 .bf16 :=
  View.canon [⟨r1_o, k1_pay1 (View.ld x0 r1_x) (View.ld x1 r1_w) (View.ld x2 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.SpecLin2.lean ====
import proofs.«404408_j69475390980772_3_alg».proof.Proof.Gen.KernelIdeal.Launch
import proofs.«404408_j69475390980772_3_alg».proof.Proof.Gen.KernelIdeal.Skeleton
import proofs.«404408_j69475390980772_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x1024 := Rect.unit (s := S1024x1024) ![0, 0] S1024x1024.size inb_S1024x1024_S1024x1024_0_0
abbrev r2_w : Rect S512x1024 := Rect.unit (s := S512x1024) ![0, 0] S512x1024.size inb_S512x1024_S512x1024_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

def out2_3 (x0 : Vec F S1024x1024 .f32) (x1 : Vec F S512x1024 .f32) (x2 : Vec F S1x512 .f32) : Vec F S1024x512 .bf16 :=
  View.canon [⟨r2_o, k2_pay1 (View.ld x0 r2_x) (View.ld x1 r2_w) (View.ld x2 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Spec3.lean ====
import proofs.«404408_j69475390980772_3_alg».proof.Proof.Gen.KernelIdeal.Launch
import proofs.«404408_j69475390980772_3_alg».proof.Proof.Gen.KernelIdeal.Skeleton
import proofs.«404408_j69475390980772_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step3 (c : Dev nD) (t : Fin cfg3.N) (prev : Vec F S1x1024 .f32 × Vec F S1x1024 .f32) :
    Vec F S1x1024 .f32 × Vec F S1x1024 .f32 :=
  let p : Vec F S1x1024 .f32 × Vec F S1x1024 .f32 := if t.val % 8 = 0 then (k3_pay1, k3_pay2) else prev
  if t.val % 8 < t.val / 8 then (k3_pay3 p.1, k3_pay4 p.1 p.1 p.2)
  else if t.val / 8 < t.val % 8 then
    (k3_pay6 (iblk3 V c 0 t) (iblk3 V c 1 t) p.1, k3_pay7 (iblk3 V c 0 t) (iblk3 V c 1 t) p.1 p.1 p.2)
  else
    (k3_pay9 (BitVec.ofNat 32 ((grid3.coords t) 0).val) (BitVec.ofNat 32 ((grid3.coords t) 1).val) (iblk3 V c 0 t) (iblk3 V c 1 t) p.1,
     k3_pay10 (BitVec.ofNat 32 ((grid3.coords t) 0).val) (BitVec.ofNat 32 ((grid3.coords t) 1).val) (iblk3 V c 0 t) (iblk3 V c 1 t) p.1 p.1 p.2)

def outsAt3 (c : Dev nD) : (n : ℕ) → n < cfg3.N → Vec F S1x1024 .f32 × Vec F S1x1024 .f32
  | 0, hn => step3 V c ⟨0, hn⟩ (k3_pay1, k3_pay2)
  | n + 1, hn => step3 V c ⟨n + 1, hn⟩ (outsAt3 c n (Nat.lt_of_succ_lt hn))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2 := by dsimp only [dat3]

end Cert.KernelIdeal.Hand

end
-- ==== Proof.KI.Spec4.lean ====
import proofs.«404408_j69475390980772_3_alg».proof.Proof.Gen.KernelIdeal.Launch
import proofs.«404408_j69475390980772_3_alg».proof.Proof.Gen.KernelIdeal.Skeleton
import proofs.«404408_j69475390980772_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def step4 (c : Dev nD) (t : Fin cfg4.N) (prev : Vec F S1024x512 .f32) : Vec F S1024x512 .f32 :=
  let p : Vec F S1024x512 .f32 := if t.val % 8 = 0 then k4_pay1 else prev
  if t.val / 8 < t.val % 8 then k4_pay2 (iblk4 V c 3 t) (iblk4 V c 2 t) p
  else if t.val % 8 < t.val / 8 then k4_pay3 (iblk4 V c 0 t) (iblk4 V c 1 t) (iblk4 V c 3 t) p (iblk4 V c 2 t)
  else k4_pay4 (grid4.coords t) (iblk4 V c 0 t) (iblk4 V c 1 t) (iblk4 V c 3 t) p (iblk4 V c 2 t)

def outsAt4 (c : Dev nD) : (n : ℕ) → n < cfg4.N → Vec F S1024x512 .f32
  | 0, hn => step4 V c ⟨0, hn⟩ k4_pay1
  | n + 1, hn => step4 V c ⟨n + 1, hn⟩ (outsAt4 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outsAt4 V c t.val t.isLt
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outsAt4 V c t.val t.isLt := by dsimp only [dat4]

end Cert.KernelIdeal.Hand

end
-- ==== Proof.KI.RunDefs.lean ====
import proofs.«404408_j69475390980772_3_alg».proof.Proof.KI.SpecLin0
import proofs.«404408_j69475390980772_3_alg».proof.Proof.KI.SpecLin1
import proofs.«404408_j69475390980772_3_alg».proof.Proof.KI.SpecLin2
import proofs.«404408_j69475390980772_3_alg».proof.Proof.KI.Spec3
import proofs.«404408_j69475390980772_3_alg».proof.Proof.KI.Spec4

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

-- where every window whose array is b ends at the contents it began with, b's contents at the region's exit are those at its entry
theorem keepArr {gr W : Nat} (spec : Fin W → Pipeline.WinSpec sig gr) (hinj : Function.Injective (Pipeline.arrRef spec)) (c : Dev nD)
    (V : Valuation τ sig (Elt F)) (A : (w : Fin W) → Buf (Elt F) ((spec w).arr.view.loc (c : Thread nD τ))) (b : Ref sig .tc)
    (h : ∀ w, Pipeline.arrRef spec w = b → A w = V (Proc.devRef .tc (Pipeline.arrRef spec w))) :
    Pipeline.withArrays spec c V A (Proc.devRef .tc b) = V (Proc.devRef .tc b) := by
  by_cases hb : ∃ w, Pipeline.arrRef spec w = b
  · obtain ⟨w, rfl⟩ := hb; exact (Pipeline.withArrays_arr spec hinj c V A w).trans (h w rfl)
  · exact Pipeline.withArrays_of_ne spec c V A b fun w e => hb ⟨w, e⟩

theorem W2_keep (c : Dev nD) (b : Ref sig .tc) (hb : main_v1 ≠ b) : W2 m ρ c (Proc.devRef .tc b) = W1 m ρ c (Proc.devRef .tc b) := by
  unfold W2
  exact keepArr spec0 launch0.win.arr_inj c _ _ b fun w e => ((dat0 (V1 m ρ) c).arrAt_in w
    ((by decide : ∀ w : Fin cfg0.W, Pipeline.arrRef spec0 w ≠ main_v1 → (cfg0.win w).isOut = false) w fun h => hb (h.symm.trans e)) _).trans
    (A_eq0 (V1 m ρ) c w)
theorem W4_keep (c : Dev nD) (b : Ref sig .tc) (hb : main_v3 ≠ b) : W4 m ρ c (Proc.devRef .tc b) = W3 m ρ c (Proc.devRef .tc b) := by
  unfold W4
  exact keepArr spec1 launch1.win.arr_inj c _ _ b fun w e => ((dat1 (V3 m ρ) c).arrAt_in w
    ((by decide : ∀ w : Fin cfg1.W, Pipeline.arrRef spec1 w ≠ main_v3 → (cfg1.win w).isOut = false) w fun h => hb (h.symm.trans e)) _).trans
    (A_eq1 (V3 m ρ) c w)
theorem W6_keep (c : Dev nD) (b : Ref sig .tc) (hb : main_v5 ≠ b) : W6 m ρ c (Proc.devRef .tc b) = W5 m ρ c (Proc.devRef .tc b) := by
  unfold W6
  exact keepArr spec2 launch2.win.arr_inj c _ _ b fun w e => ((dat2 (V5 m ρ) c).arrAt_in w
    ((by decide : ∀ w : Fin cfg2.W, Pipeline.arrRef spec2 w ≠ main_v5 → (cfg2.win w).isOut = false) w fun h => hb (h.symm.trans e)) _).trans
    (A_eq2 (V5 m ρ) c w)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c

end Cert.KernelIdeal.Hand

end
-- ==== Proof.KI.LinBody.lean ====
import proofs.«404408_j69475390980772_3_alg».proof.Proof.KI.SpecLin0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the three projections run one body, up to the payload of its one store
def linSkel (pay : Vec F S1024x1024 .f32 → Vec F S512x1024 .f32 → Vec F S1x512 .f32 → FVec F S1024x512 .bf16)
    (arg1 : Memref sig .tc .vmem S1024x1024 .f32) (harg1 : arg1.IsWhole) (arg2 : Memref sig .tc .vmem S512x1024 .f32) (harg2 : arg2.IsWhole)
    (arg3 : Memref sig .tc .vmem S1x512 .f32) (harg3 : arg3.IsWhole) (arg4 : Memref sig .tc .vmem S1024x512 .bf16) (harg4 : arg4.IsWhole) :
    Prog (TpuEff nD τ sig (Elt F) Λ₀ .tc) PUnit := do
  let v0 : Vec F S1024x1024 .f32 ← Prog.lift (.load arg1 (Rect.unit (s := S1024x1024) ![0, 0] S1024x1024.size inb_S1024x1024_S1024x1024_0_0).toLoadRect (View.loadsAt_vmem h_S1024x1024))
  let v2 : Vec F S512x1024 .f32 ← Prog.lift (.load arg2 (Rect.unit (s := S512x1024) ![0, 0] S512x1024.size inb_S512x1024_S512x1024_0_0).toLoadRect (View.loadsAt_vmem h_S512x1024))
  let v6 : Vec F S1x512 .f32 ← Prog.lift (.load arg3 (Rect.unit (s := S1x512) ![0, 0] S1x512.size inb_S1x512_S1x512_0_0).toLoadRect (View.loadsAt_vmem h_S1x512))
  let v13 : Vec F S1024x512 .bf16 ← Prog.lift (.load arg4 (Rect.unit (s := S1024x512) ![0, 0] S1024x512.size inb_S1024x512_S1024x512_0_0).toLoadRect (View.loadsAt_vmem h_S1024x512))
  Prog.lift (.store arg4 (Rect.unit (s := S1024x512) ![0, 0] S1024x512.size inb_S1024x512_S1024x512_0_0) (pay v0 v2 v6) Finset.univ (View.stores_vmem h_S1024x512 (harg4.storeExact_slice rfl _ packedbf16_S1024x512_S1024x512_0_0) (fun _ => rfl)) (.inl rfl))
  pure ⟨⟩

abbrev linOut (pay : Vec F S1024x1024 .f32 → Vec F S512x1024 .f32 → Vec F S1x512 .f32 → FVec F S1024x512 .bf16)
    (xa : Vec F S1024x1024 .f32) (xb : Vec F S512x1024 .f32) (xc : Vec F S1x512 .f32) : Vec F S1024x512 .bf16 :=
  View.canon [⟨r0_o, pay (View.ld xa r0_x) (View.ld xb r0_w) (View.ld xc r0_b)⟩]

-- the store's rectangle is the whole block, so what the output buffer held before does not survive
theorem lin_body {Da Db Dc Dd : Type} (pay : Vec F S1024x1024 .f32 → Vec F S512x1024 .f32 → Vec F S1x512 .f32 → FVec F S1024x512 .bf16)
    (c : Dev nD) (P O : sProp 𝕄)
    (ma : Memref sig .tc .vmem S1024x1024 .f32) (hma : ma.IsWhole) (mb : Memref sig .tc .vmem S512x1024 .f32) (hmb : mb.IsWhole)
    (mc : Memref sig .tc .vmem S1x512 .f32) (hmc : mc.IsWhole) (md : Memref sig .tc .vmem S1024x512 .bf16) (hmd : md.IsWhole)
    (xa : Vec F S1024x1024 .f32) (xb : Vec F S512x1024 .f32) (xc : Vec F S1x512 .f32) (f : Dd → Vec F S1024x512 .bf16) :
    iprop(P ∗ O ∗ (∃ _ : Da, owns (c : Thread nD τ) ma fullShare xa) ∗ (∃ _ : Db, owns (c : Thread nD τ) mb fullShare xb)
        ∗ (∃ _ : Dc, owns (c : Thread nD τ) mc fullShare xc) ∗ (∃ d : Dd, owns (c : Thread nD τ) md fullShare (f d)))
      ⊢ wp frame (wpE (defs₀ (F := F)) Variants.none c none) Set.univ (linSkel pay ma hma mb hmb mc hmc md hmd)
          (fun _ => iprop(P ∗ O ∗ owns (c : Thread nD τ) ma fullShare xa ∗ owns (c : Thread nD τ) mb fullShare xb
            ∗ owns (c : Thread nD τ) mc fullShare xc ∗ owns (c : Thread nD τ) md fullShare (linOut pay xa xb xc))) := by
  unfold linSkel owns
  iintro ⟨HP, HO, ⟨%da, %fa, %hfa, Ha⟩, ⟨%db, %fb, %hfb, Hb⟩, ⟨%dc, %fc, %hfc, Hc⟩, ⟨%dd, %fd, -, Hd⟩⟩
  subst hfa; subst hfb; subst hfc
  sl_exec
  sl_step
  isplitl [HP]; · iexact HP
  isplitl [HO]; · iexact HO
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (View.cover_of_tiled [⟨r0_o, _⟩] S1024x512.size (by rfl))

end Cert.KernelIdeal.Hand

end
-- ==== Proof.KI.Lin0.lean ====
import proofs.«404408_j69475390980772_3_alg».proof.Proof.KI.LinBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  simp only [before0_0, before0_1, before0_2, cc0__linear_kernel_eq_skeleton]
  rw [after0_0, after0_1, after0_2, after0_3]
  exact lin_body k0_pay1 c _ _ (st0_0 t) (hstage0_0 _) (st0_1 t) (hstage0_1 _) (st0_2 t) (hstage0_2 _) (st0_3 t) (hstage0_3 _) _ _ _ _

end Cert.KernelIdeal.Hand

end
-- ==== Proof.KI.Lin1.lean ====
import proofs.«404408_j69475390980772_3_alg».proof.Proof.KI.LinBody
import proofs.«404408_j69475390980772_3_alg».proof.Proof.KI.SpecLin1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  simp only [before1_0, before1_1, before1_2, cc1__linear_kernel_eq_skeleton]
  rw [after1_0, after1_1, after1_2, after1_3]
  exact lin_body k1_pay1 c _ _ (st1_0 t) (hstage1_0 _) (st1_1 t) (hstage1_1 _) (st1_2 t) (hstage1_2 _) (st1_3 t) (hstage1_3 _) _ _ _ _

end Cert.KernelIdeal.Hand

end
-- ==== Proof.KI.Lin2.lean ====
import proofs.«404408_j69475390980772_3_alg».proof.Proof.KI.LinBody
import proofs.«404408_j69475390980772_3_alg».proof.Proof.KI.SpecLin2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  simp only [before2_0, before2_1, before2_2, cc2__linear_kernel_eq_skeleton]
  rw [after2_0, after2_1, after2_2, after2_3]
  exact lin_body k2_pay1 c _ _ (st2_0 t) (hstage2_0 _) (st2_1 t) (hstage2_1 _) (st2_2 t) (hstage2_2 _) (st2_3 t) (hstage2_3 _) _ _ _ _

end Cert.KernelIdeal.Hand

end
-- ==== Proof.KI.StatsRuns.lean ====
import proofs.«404408_j69475390980772_3_alg».proof.Proof.KI.Spec3
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz3 : (![0, 0] : Fin 2 → Nat) = fun _ => 0 := funext fun a => by fin_cases a <;> rfl

abbrev r3_m : Rect S1x1024 := Rect.unit (s := S1x1024) ![0, 0] S1x1024.size inb_S1x1024_S1x1024_0_0

-- the last store covers the whole row, so the row reads as its payload
theorem read_store3 {κ : Kind} {sp : Space} (v : View sig κ sp S1x1024 .f32) (f : v.ty.Contents (Elt F)) (p : Vec F S1x1024 .f32)
    (L : List (View.Piece (Elt F) S1x1024 .f32)) :
    v.read (Elt F) (v.writes (Elt F) f ((⟨r3_m, p⟩ : View.Piece (Elt F) S1x1024 .f32) :: L)) = p := by
  rw [View.read_writes_eq_canon _ _ _ fun y => ⟨_, List.mem_cons_self, View.mem_set_unit_zero hz3 inb_S1x1024_S1x1024_0_0 y⟩,
    View.canon_cons_unit_zero hz3]

-- the carried pair after the body's conditionals: restart, then the tile above, below or on the diagonal
def stp3 (i : grid3.Coords) (q k : Vec F S1024x512 .bf16) (p : Vec F S1x1024 .f32 × Vec F S1x1024 .f32) :
    Vec F S1x1024 .f32 × Vec F S1x1024 .f32 :=
  let p : Vec F S1x1024 .f32 × Vec F S1x1024 .f32 := if k3_cond1 i = 1#1 then (k3_pay1, k3_pay2) else p
  if k3_cond2 i = 1#1 then (k3_pay3 p.1, k3_pay4 p.1 p.1 p.2)
  else if k3_cond3 i = 1#1 then (k3_pay6 q k p.1, k3_pay7 q k p.1 p.1 p.2)
  else (k3_pay9 (BitVec.ofNat 32 (i 0).val) (BitVec.ofNat 32 (i 1).val) q k p.1,
    k3_pay10 (BitVec.ofNat 32 (i 0).val) (BitVec.ofNat 32 (i 1).val) q k p.1 p.1 p.2)

-- over the grid the four conditions occur in five combinations only
theorem cases3 : ∀ i : grid3.Coords,
    (k3_cond1 i = 1#1 ∧ ¬k3_cond2 i = 1#1 ∧ ¬k3_cond3 i = 1#1 ∧ k3_cond4 i = 1#1) ∨
    (k3_cond1 i = 1#1 ∧ k3_cond2 i = 1#1 ∧ ¬k3_cond3 i = 1#1 ∧ ¬k3_cond4 i = 1#1) ∨
    (¬k3_cond1 i = 1#1 ∧ k3_cond2 i = 1#1 ∧ ¬k3_cond3 i = 1#1 ∧ ¬k3_cond4 i = 1#1) ∨
    (¬k3_cond1 i = 1#1 ∧ ¬k3_cond2 i = 1#1 ∧ k3_cond3 i = 1#1 ∧ ¬k3_cond4 i = 1#1) ∨
    (¬k3_cond1 i = 1#1 ∧ ¬k3_cond2 i = 1#1 ∧ ¬k3_cond3 i = 1#1 ∧ k3_cond4 i = 1#1) := by decide +kernel

-- each load and store spans the whole of its array, so the body takes the pair (m0, l0) to its step, in each combination
theorem run3 {c : Dev nD} {E : Set ℕ} {i : grid3.Coords} {arg2 arg3 : Memref sig .tc .vmem S1024x512 .bf16} {arg4 arg5 : Memref sig .tc .vmem S1x1024 .f32}
    {harg2 : arg2.IsWhole} {harg3 : arg3.IsWhole} {harg4 : arg4.IsWhole} {harg5 : arg5.IsWhole}
    {q k : Vec F S1024x512 .bf16} {m0 l0 : Vec F S1x1024 .f32} {K : PUnit → sProp 𝕄} :
    iprop(owns c.tc arg2 fullShare q ∗ owns c.tc arg3 fullShare k ∗ owns c.tc arg4 fullShare m0 ∗ owns c.tc arg5 fullShare l0
        ∗ (iprop(owns c.tc arg2 fullShare q ∗ owns c.tc arg3 fullShare k
            ∗ owns c.tc arg4 fullShare (stp3 i q k (m0, l0)).1 ∗ owns c.tc arg5 fullShare (stp3 i q k (m0, l0)).2) -∗ K ⟨⟩))
      ⊢ wp frame (wpE (defs₀ (F := F)) Variants.none c none) E (cc3__stats_kernel i arg2 harg2 arg3 harg3 arg4 harg4 arg5 harg5) K := by
  simp only [cc3__stats_kernel_eq_skeleton]; unfold cc3__stats_kernel_skel owns
  iintro ⟨⟨%f2, %hf2, H2⟩, ⟨%f3, %hf3, H3⟩, ⟨%f4, %hf4, H4⟩, ⟨%f5, %hf5, H5⟩, Hk⟩
  subst hf2 hf3 hf4 hf5
  rcases cases3 i with h | h | h | h | h <;> obtain ⟨h1, h2, h3, h4⟩ := h
  all_goals
    sl_exec (disch := first | exact h1 | exact h2 | exact h3 | exact h4)
    sl_step
    iapply Hk
    isplitl [H2]; swap; isplitl [H3]; swap; isplitl [H4]
    all_goals
      iexists _; isplitr; swap; · first | iexact H2 | iexact H3 | iexact H4 | iexact H5
      ipureintro
      try rw [read_store3]
      try sl_unfold_run_names
      simp only [stp3, h1, h2, h3, h4, ↓reduceIte, View.readAt_eq_ld, View.ld_unit_zero (S := S1024x512) hz3, View.ld_unit_zero (S := S1x1024) hz3,
        View.readCov_unit_zero (S := S1x1024) _ hz3] <;> rfl

end Cert.KernelIdeal.Hand

end
-- ==== Proof.KI.Stats.lean ====
import proofs.«404408_j69475390980772_3_alg».proof.Proof.KI.StatsRuns

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hcond3 : ∀ t : Fin grid3.N, (k3_cond1 (grid3.coords t) = 1#1 ↔ t.val % 8 = 0)
    ∧ (k3_cond2 (grid3.coords t) = 1#1 ↔ t.val % 8 < t.val / 8) ∧ (k3_cond3 (grid3.coords t) = 1#1 ↔ t.val / 8 < t.val % 8) := by
  decide +kernel

theorem live3 : ∀ (w : Fin 4) (i : grid3.Coords), idle3 w i = false := by decide +kernel

theorem step3_eq (c : Dev nD) (t : Fin cfg3.N) (p : Vec F S1x1024 .f32 × Vec F S1x1024 .f32) :
    step3 V c t p = stp3 (grid3.coords t) (iblk3 V c 0 t) (iblk3 V c 1 t) p := by
  unfold step3 stp3; simp only [hcond3 t]

theorem before3_in (c : Dev nD) (t : Fin cfg3.N) :
    (∀ d, (dat3 V c).before 0 t d = iblk3 V c 0 t) ∧ ∀ d, (dat3 V c).before 1 t d = iblk3 V c 1 t := by
  refine ⟨fun d => ?_, fun d => ?_⟩ <;>
  exact (dat3 V c).before_in_eq_fetched _ rfl (fun _ => rfl) (fun _ _ _ => rfl) (fun _ => rfl) t d

-- the carried pair at a point is the step of the pair the output rows held there
theorem outs3_eq (c : Dev nD) (t : Fin cfg3.N) (d2) (d3) :
    outsAt3 V c t.val t.isLt = step3 V c t ((dat3 V c).before 2 t d2, (dat3 V c).before 3 t d3) := by
  by_cases h0 : t.val % 8 = 0
  · obtain ⟨_ | n, hn⟩ := t <;> (show step3 V c _ _ = _; unfold step3; simp only [if_pos h0, ↓reduceIte])
  · have e : ((dat3 V c).before 2 t d2, (dat3 V c).before 3 t d3) = outsAt3 V c (t.val - 1) (by omega) := by
      refine Prod.ext ?_ ?_ <;> dsimp only <;> exact (dat3 V c).before_out_kept _ rfl t (by omega) (Bool.eq_false_iff.mpr fun h => by
        (first | have := (flush3_2 _).mp h | have := (flush3_3 _).mp h); dsimp only at this; omega) (live3 _) (fun _ _ => rfl) _
    rw [e]; obtain ⟨_ | n, hn⟩ := t
    · exact absurd rfl h0
    · rfl

theorem body_obligation3 (c : Dev nD) : BodyObligation (dat3 (F := F) V c) (defs₀ (F := F)) Variants.none () Set.univ := fun t => by
  rw [bigSep_W3, bigSep_W3]
  show _ ⊢ wp frame _ _ (bodyAt3 t) fun _ => iprop((dat3 V c).Φ t.castSucc ∗ (dat3 V c).owesAt () t.castSucc ∗ _)
  simp only [before3_in V c t, after3_0, after3_1, after3_2, after3_3]
  rw [live3]; dsimp only
  iintro ⟨HΦ, Ho, ⟨%d0, H0⟩, ⟨%d1, H1⟩, ⟨%d2, H2⟩, ⟨%d3, H3⟩⟩
  rw [outs3_eq V c t d2 d3, step3_eq]
  iapply run3
  iframe
  iintro ⟨H0, H1, H2, H3⟩
  iframe

end Cert.KernelIdeal.Hand

end
-- ==== Proof.KI.OutRunA.lean ====
import proofs.«404408_j69475390980772_3_alg».proof.Proof.KI.Spec4
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- A write over the whole shape, made last, decides every element read afterwards.
theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0) (inb : ∀ a, off a + S.size a ≤ S.size a)
    (w : S.Idx → Val e) (L : List (View.Piece Val S e)) : v.read Val (v.writes Val f (⟨Rect.unit off S.size inb, w⟩ :: L)) = w :=
  (View.read_writes_eq_canon v f _ fun y => ⟨_, List.mem_cons_self, View.mem_set_unit_zero h inb y⟩).trans (View.canon_cons_unit_zero h inb w L)

-- Two tile numbers stand in exactly one of the three orders, and nothing is less than zero.
theorem excl4 (i : grid4.Coords) : (k4_cond1 i = 1#1 → ¬k4_cond2 i = 1#1)
    ∧ ((k4_cond2 i = 1#1 ∧ ¬k4_cond3 i = 1#1 ∧ ¬k4_cond4 i = 1#1) ∨ (¬k4_cond2 i = 1#1 ∧ k4_cond3 i = 1#1 ∧ ¬k4_cond4 i = 1#1)
      ∨ (¬k4_cond2 i = 1#1 ∧ ¬k4_cond3 i = 1#1 ∧ k4_cond4 i = 1#1)) := by
  dsimp only [k4_cond1, k4_cond2, k4_cond3, k4_cond4]
  generalize i 0 = a; generalize i 1 = b; revert a b; decide +kernel

-- Zero at column tile 0, else the block carried in; then the one update that the order of row and column tile selects.
def out4 (i : grid4.Coords) (q k : Vec F S1024x512 .bf16) (mrow : Vec F S1x1024 .f32) (o : Vec F S1024x512 .f32)
    (vs : Vec F S1024x512 .bf16) : Vec F S1024x512 .f32 :=
  let p : Vec F S1024x512 .f32 := if k4_cond1 i = 1#1 then k4_pay1 else o
  if k4_cond2 i = 1#1 then k4_pay2 mrow vs p else if k4_cond3 i = 1#1 then k4_pay3 q k mrow p vs else k4_pay4 i q k mrow p vs

theorem run4 (c : Dev nD) (i : grid4.Coords) {arg2 arg3 arg4 : Memref sig .tc .vmem S1024x512 .bf16} {arg5 : Memref sig .tc .vmem S1x1024 .f32}
    {arg6 : Memref sig .tc .vmem S1024x512 .f32} {harg2 : arg2.IsWhole} {harg3 : arg3.IsWhole} {harg4 : arg4.IsWhole} {harg5 : arg5.IsWhole}
    {harg6 : arg6.IsWhole} (q k vs : Vec F S1024x512 .bf16) (mrow : Vec F S1x1024 .f32) (o : Vec F S1024x512 .f32) {E : Set ℕ} {K : PUnit → sProp 𝕄} :
    iprop(owns (c : Thread nD τ) arg2 fullShare q ∗ owns (c : Thread nD τ) arg3 fullShare k ∗ owns (c : Thread nD τ) arg4 fullShare vs
        ∗ owns (c : Thread nD τ) arg5 fullShare mrow ∗ owns (c : Thread nD τ) arg6 fullShare o
        ∗ (iprop(owns (c : Thread nD τ) arg2 fullShare q ∗ owns (c : Thread nD τ) arg3 fullShare k ∗ owns (c : Thread nD τ) arg4 fullShare vs
            ∗ owns (c : Thread nD τ) arg5 fullShare mrow ∗ owns (c : Thread nD τ) arg6 fullShare (out4 i q k mrow o vs)) -∗ K ⟨⟩))
      ⊢ wp frame (wpE (defs₀ (F := F)) Variants.none c none) E (cc4__out_kernel i arg2 harg2 arg3 harg3 arg4 harg4 arg5 harg5 arg6 harg6) K := by
  simp only [cc4__out_kernel_eq_skeleton]; unfold cc4__out_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  have hz : (![0, 0] : Fin 2 → Nat) = fun _ => 0 := funext fun a => by fin_cases a <;> rfl
  obtain ⟨h12, ⟨h2, h3, h4⟩ | ⟨h2, h3, h4⟩ | ⟨h2, h3, h4⟩⟩ := excl4 i <;> by_cases h1 : k4_cond1 i = 1#1 <;> first | exact absurd h2 (h12 h1) |
    sl_exec (disch := first | exact h1 | exact h2 | exact h3 | exact h4)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap; · iexact H6
    ipureintro
    try sl_unfold_run_names
    rw [read_writes_unit_zero _ _ hz]
    simp only [out4, h1, h2, h3, h4, ↓reduceIte, View.readAt_eq_ld, hf2, hf3, hf4, hf5, hf6, View.ld_unit_zero (S := S1024x512) hz,
      View.ld_unit_zero (S := S1x1024) hz, View.readCov_unit_zero (S := S1024x512) _ hz]

end Cert.KernelIdeal.Hand

end
-- ==== Proof.KI.OutK.lean ====
import proofs.«404408_j69475390980772_3_alg».proof.Proof.KI.OutRunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hcond4 : ∀ t : Fin grid4.N, (k4_cond1 (grid4.coords t) = 1#1 ↔ t.val % 8 = 0)
    ∧ (k4_cond2 (grid4.coords t) = 1#1 ↔ t.val / 8 < t.val % 8) ∧ (k4_cond3 (grid4.coords t) = 1#1 ↔ t.val % 8 < t.val / 8) := by
  decide +kernel

theorem hlive4_4 (i : cfg4.grid.Coords) : cfg4.idle 4 i = false := by
  rcases (excl4 i).2 with ⟨h, -⟩ | ⟨-, h, -⟩ | ⟨-, -, h⟩ <;> simp [idle4, h]

theorem step4_eq (c : Dev nD) (t : Fin cfg4.N) (prev : Vec F S1024x512 .f32) :
    step4 V c t prev = out4 (grid4.coords t) (iblk4 V c 0 t) (iblk4 V c 1 t) (iblk4 V c 3 t) prev (iblk4 V c 2 t) := by
  unfold step4 out4; simp only [(hcond4 t).1, (hcond4 t).2.1, (hcond4 t).2.2]

-- At column tile 0 the update starts from zero, whatever was carried.
theorem step4_restart (c : Dev nD) (t : Fin cfg4.N) (h0 : t.val % 8 = 0) (p p' : Vec F S1024x512 .f32) :
    step4 V c t p = step4 V c t p' := by
  unfold step4; dsimp only; rw [if_pos h0, if_pos h0]

theorem before4_in (c : Dev nD) (w : Fin cfg4.W) (hw : w ≠ 4) (t : Fin cfg4.N) (d) : (dat4 V c).before w t d = (dat4 V c).after w t := by
  fin_cases w <;> first | exact absurd rfl hw |
    exact ((dat4 V c).before_in_eq_fetched _ rfl (fun _ => rfl) (fun _ _ _ => rfl) (fun _ => rfl) t d).trans rfl

-- Away from column tile 0 the update starts from what the point before left.
theorem outsAt4_eq (c : Dev nD) (t : Fin cfg4.N) (d) : outsAt4 V c t.val t.isLt = step4 V c t ((dat4 V c).before 4 t d) := by
  by_cases h0 : t.val % 8 = 0
  · obtain ⟨_ | n, hn⟩ := t <;> exact step4_restart V c _ h0 _ _
  · rw [Dat.before_out_kept _ 4 rfl t (by omega)
      (Bool.eq_false_iff.mpr fun h => by have := (flush4_4 _).mp h; dsimp only at this; omega) hlive4_4 (fun _ _ => rfl), after4_4]
    obtain ⟨_ | n, hn⟩ := t
    · exact absurd rfl h0
    · rfl

theorem body_obligation4 (c : Dev nD) : BodyObligation (dat4 (F := F) V c) (defs₀ (F := F)) Variants.none () Set.univ := fun t => by
  rw [bigSep_W4, bigSep_W4]
  have hl : idle4 4 (grid4.coords t) = false := hlive4_4 _
  simp (disch := decide) only [hl, before4_in]
  rw [after4_0, after4_1, after4_2, after4_3, after4_4]
  change _ ⊢ wp _ _ _ (bodyAt4 t) _
  iintro ⟨HΦ, Ho, ⟨%d0, H0⟩, ⟨%d1, H1⟩, ⟨%d2, H2⟩, ⟨%d3, H3⟩, ⟨%d4, H4⟩⟩
  rw [outsAt4_eq V c t d4, step4_eq]
  iapply run4 c (grid4.coords t) (iblk4 V c 0 t) (iblk4 V c 1 t) (iblk4 V c 2 t) (iblk4 V c 3 t)
  iframe
  iintro ⟨H0, H1, H2, H3, H4⟩
  iframe
  istop; exact Entails.refl _

end Cert.KernelIdeal.Hand

end
-- ==== Proof.KI.Run.lean ====
import proofs.«404408_j69475390980772_3_alg».proof.Proof.KI.RunDefs
import proofs.«404408_j69475390980772_3_alg».proof.Proof.KI.Lin0
import proofs.«404408_j69475390980772_3_alg».proof.Proof.KI.Lin1
import proofs.«404408_j69475390980772_3_alg».proof.Proof.KI.Lin2
import proofs.«404408_j69475390980772_3_alg».proof.Proof.KI.Stats
import proofs.«404408_j69475390980772_3_alg».proof.Proof.KI.OutK
import proofs.«404408_j69475390980772_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

theorem pd (p : Fin 5) : ∀ c : Dev nD, (∀ w, (pdats m ρ p c).q w = fullShare) ∧ (∀ i, (pdats m ρ p c).Φ i = Pipeline.ΦA (cfgs p).spec c)
    ∧ (∀ t, (pdats m ρ p c).owed t = 0) ∧ ∀ x, x ∈ (pdats m ρ p c).recorded 0 := by
  fin_cases p <;> exact fun _ => ⟨fun _ => rfl, fun _ => rfl, fun _ => rfl, fun _ => trivial⟩

set_option backward.isDefEq.respectTransparency.types false in
def regOf (p : Fin 5) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (hA : ∀ c w, (pdats m ρ p c).A w = Wi c (Proc.devRef .tc (Pipeline.arrRef (cfgs p).spec w)))
    (harr : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pd m ρ p c).2.2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (pd m ρ p c).1) (fun b => Wi c b) (hA c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [(pd m ρ p c).2.2.1 0]
    icases HO with ⟨%W, HO⟩; iexists W; isplitr; · ipureintro; exact fun x _ => Or.inl ((pd m ρ p c).2.2.2 x)
    iexact HO
  hin c := by
    rw [(pd m ρ p c).2.1 0]; unfold Pipeline.ΦA
    iintro ⟨Hp, -, Hr⟩
    iframe
  hout c := by
    rw [Pipeline.ownSems0_none, (pd m ρ p c).2.1 (Fin.last _)]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full (pd m ρ p c).1)
      (fun b => Wi c b) (fun b => Wo c b) ((pdats m ρ p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(pd m ρ p c).2.2.1 (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (regOf m ρ 0 launch0 (W1 m ρ) (W2 m ρ) (body_obligation0 (V1 m ρ)) (fun _ _ => rfl) (W2_arr m ρ) (W2_of_ne m ρ)),
    .host (hseg hostOps1 hostOps1_sub hostOps1_fresh (W2 m ρ)),
    .region (regOf m ρ 1 launch1 (W3 m ρ) (W4 m ρ) (body_obligation1 (V3 m ρ)) (fun _ _ => rfl) (W4_arr m ρ) (W4_of_ne m ρ)),
    .host (hseg hostOps2 hostOps2_sub hostOps2_fresh (W4 m ρ)),
    .region (regOf m ρ 2 launch2 (W5 m ρ) (W6 m ρ) (body_obligation2 (V5 m ρ)) (fun _ _ => rfl) (W6_arr m ρ) (W6_of_ne m ρ)),
    .region (regOf m ρ 3 launch3 (W6 m ρ) (W7 m ρ) (body_obligation3 (V6 m ρ)) (fun _ _ => rfl) (W7_arr m ρ) (W7_of_ne m ρ)),
    .host (hseg hostOps4 hostOps4_sub hostOps4_fresh (W7 m ρ)),
    .region (regOf m ρ 4 launch4 (W8 m ρ) (W9 m ρ) (body_obligation4 (V8 m ρ)) (fun _ _ => rfl) (W9_arr m ρ) (W9_of_ne m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      iframe)
    (hQ := fun s h c => h c)

abbrev args : List (Ref sig .tc) :=
  [main_arg0, main_arg1, main_arg2, main_arg3, main_arg4, main_arg5, main_arg6, main_arg7, main_arg8]

theorem args_far : ∀ b ∈ args, ¬ (Proc.devRef .tc b : DevRef τ sig).isScoped ∧ (∀ w, Pipeline.arrRef spec4 w ≠ b)
    ∧ b ∉ (hostOps4_W : List (Ref sig .tc)) ∧ (∀ w, Pipeline.arrRef spec3 w ≠ b) ∧ main_v5 ≠ b
    ∧ b ∉ (hostOps2_W : List (Ref sig .tc)) ∧ main_v3 ≠ b ∧ b ∉ (hostOps1_W : List (Ref sig .tc)) ∧ main_v1 ≠ b
    ∧ b ∉ (hostOps0_W : List (Ref sig .tc)) := by decide

-- an argument is written by no host stretch and is no region's output, so the last contents are the launch's
theorem W9_arg (c : Dev nD) (b : Ref sig .tc) (hb : b ∈ args) :
    W9 m ρ c (Proc.devRef .tc b) = m ((c : Thread nD τ).loc b) := by
  obtain ⟨-, h9, h8, h7, h6, h5, h4, h3, h2, h1⟩ := args_far b hb
  exact (W9_of_ne m ρ c b h9).trans <| (StableHlo.after_of_writes_sub hostOps4 _ hostOps4_writes h8).trans <|
    (W7_of_ne m ρ c b h7).trans <| (W6_keep m ρ c b h6).trans <|
    (StableHlo.after_of_writes_sub hostOps2 _ hostOps2_writes h5).trans <| (W4_keep m ρ c b h4).trans <|
    (StableHlo.after_of_writes_sub hostOps1 _ hostOps1_writes h3).trans <| (W2_keep m ρ c b h2).trans <|
    StableHlo.after_of_writes_sub hostOps0 _ hostOps0_writes h1

theorem run_out : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have k : ∀ b ∈ args, r.2.mem ((c.tc : Thread nD τ).loc b) = m ((c.tc : Thread nD τ).loc b) := fun b hb =>
      (h c _ (mem_uc b (args_far b hb).1)).trans (W9_arg m ρ c b hb)
    ⟨h c _ (mem_uc main_v14 (by decide)), k _ (by decide), k _ (by decide), k _ (by decide), k _ (by decide),
      k _ (by decide), k _ (by decide), k _ (by decide), k _ (by decide), k _ (by decide)⟩) (run_all m ρ)

end Cert.KernelIdeal.Hand

end
-- ==== Proof.Spec.lean ====
import Idealize.ShloMosaic.PureOps.Ideal

noncomputable section

namespace Cert.Spec

open Idealize.ShloMosaic

abbrev Mat (a b : ℕ) : Type := Fin a → Fin b → EReal

def affine (x : Mat 8192 1024) (w : Mat 512 1024) (b : Fin 512 → EReal) : Mat 8192 512 :=
  fun r d => (∑ k : Fin 1024, x r k * w d k) + b d

def affineScaled (x : Mat 8192 1024) (w : Mat 512 1024) (b : Fin 512 → EReal) (s : EReal) : Mat 8192 512 :=
  fun r d => affine x w b r d * s

def score (q k : Mat 8192 512) : Mat 8192 8192 := fun r c => ∑ d : Fin 512, q r d * k c d

def masked (q k : Mat 8192 512) : Mat 8192 8192 := fun r c => if c.val ≤ r.val then score q k r c else 0

def colMax (s : Mat 8192 8192) (c : Fin 8192) : EReal := Finset.univ.sup fun r : Fin 8192 => s r c

def colSum (s : Mat 8192 8192) (c : Fin 8192) : EReal := ∑ r : Fin 8192, Ideal.exp (s r c - colMax s c)

def scaledV (v : Mat 8192 512) (l : Fin 8192 → EReal) : Mat 8192 512 := fun c d => v c d * Ideal.div 1 (l c)

def outK (s : Mat 8192 8192) (mx : Fin 8192 → EReal) (vs : Mat 8192 512) : Mat 8192 512 :=
  fun r d => ∑ c : Fin 8192, Ideal.exp (s r c - mx c) * vs c d

def refMasked (q k : Mat 8192 512) (D : EReal) : Mat 8192 8192 :=
  fun r c => Ideal.div (score q k r c) D * (if c.val ≤ r.val then (1 : EReal) else 0)

def refOut (s : Mat 8192 8192) (v : Mat 8192 512) : Mat 8192 512 :=
  fun r d => ∑ c : Fin 8192, Ideal.div (Ideal.exp (s r c - colMax s c)) (colSum s c) * v c d

def kernelOut (q k v : Mat 8192 1024) (wq wk wv : Mat 512 1024) (bq bk bv : Fin 512 → EReal) (s u : EReal) : Mat 8192 512 :=
  let sm := masked (affineScaled q wq bq s) (affineScaled k wk bk u)
  outK sm (colMax sm) (scaledV (affineScaled v wv bv u) (colSum sm))

def referenceOut (q k v : Mat 8192 1024) (wq wk wv : Mat 512 1024) (bq bk bv : Fin 512 → EReal) (D : EReal) : Mat 8192 512 :=
  refOut (refMasked (affine q wq bq) (affine k wk bk) D) (affine v wv bv)

end Cert.Spec

end
-- ==== Proof.KI.ValLin.lean ====
import proofs.«404408_j69475390980772_3_alg».proof.Proof.Gen.KernelIdeal.Skeleton
import proofs.«404408_j69475390980772_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx

-- the contraction index has one axis, of extent 1024: re-index the sum by its coordinate
theorem lin_mm_apply (a : FVec Ideal S1024x1024 .bf16) (b : FVec Ideal S1024x512 .bf16) (p : Fin 1024) (e : Fin 512) :
    FloatOps.matmul dot_S1024x1024_S1024x512_S1024x512_1_0_0_1_n_n none a b (constant S1024x512 .f32 0x00000000#32) (ix2 p e)
      = ∑ k : Fin 1024, a (ix2 p k) * b (ix2 k e) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  rw [show dot_S1024x1024_S1024x512_S1024x512_1_0_0_1_n_n.lhsIdx (ix2 p e) ((contrEquiv1 dot_S1024x1024_S1024x512_S1024x512_1_0_0_1_n_n 1024 rfl rfl).symm k) = ix2 p k from
      Shape.idx_ext₂ rfl ((DotDims.lhsIdx_val_of_single _ rfl _ _).trans hk),
    show dot_S1024x1024_S1024x512_S1024x512_1_0_0_1_n_n.rhsIdx (ix2 p e) ((contrEquiv1 dot_S1024x1024_S1024x512_S1024x512_1_0_0_1_n_n 1024 rfl rfl).symm k) = ix2 k e from
      Shape.idx_ext₂ ((DotDims.rhsIdx_val_of_single _ rfl _ _).trans hk) rfl]

/-- The three projections' payload, as one function of the scalar it multiplies by. -/
def linPay (s : Ideal .f32) (x0 : Vec Ideal S1024x1024 .f32) (x1 : Vec Ideal S512x1024 .f32) (x2 : Vec Ideal S1x512 .f32) :
    FVec Ideal S1024x512 .bf16 :=
  truncf .bf16 (mulf (addf (matmul dot_S1024x1024_S1024x512_S1024x512_1_0_0_1_n_n none (truncf .bf16 x0 bitsLt_bf16_f32)
      (transpose S1024x512 [1, 0] (truncf .bf16 x1 bitsLt_bf16_f32) transposes_S512x1024_p1_0_S1024x512) (constant S1024x512 .f32 0x00000000#32))
    (broadcastTo S1024x512 (shapeCast S1x512 x2 shapeCasts_S1x512_S1x512) broadcasts_S1x512_S1024x512)) (broadcast S1024x512 s)) bitsLt_bf16_f32

-- a change of float format is the identity on extended reals, so only the product, the bias row and the scalar remain
theorem linPay_apply (s : Ideal .f32) (x0 : Vec Ideal S1024x1024 .f32) (x1 : Vec Ideal S512x1024 .f32) (x2 : Vec Ideal S1x512 .f32)
    (p : Fin 1024) (e : Fin 512) :
    (linPay s x0 x1 x2 : S1024x512.Idx → EReal) (ix2 p e)
      = ((∑ k : Fin 1024, (x0 : S1024x1024.Idx → EReal) (ix2 p k) * (x1 : S512x1024.Idx → EReal) (ix2 e k))
          + (x2 : S1x512.Idx → EReal) (ix2 0 e)) * (s : EReal) := by
  unfold linPay
  rw [truncf_apply, mulf_apply, addf_apply, broadcast_apply, shapeCast_self,
    broadcastTo_1b_ab_apply (x2 : S1x512.Idx → EReal) broadcasts_S1x512_S1024x512 p e]
  simp only [matmul]
  rw [lin_mm_apply]
  refine congrArg (fun z => (z + (x2 : S1x512.Idx → EReal) (ix2 0 e)) * (s : EReal)) (Finset.sum_congr rfl fun k _ => ?_)
  rw [truncf_apply, transpose_ix2_apply, truncf_apply]

theorem lin_hz : (![0, 0] : Fin 2 → Nat) = fun _ => 0 := funext fun a => by fin_cases a <;> rfl

-- all four rectangles are whole blocks, so the canon is the payload of the blocks themselves; hx, hw, hb then name their entries
theorem linBlock_eq (s : Ideal .f32) (x0 : Vec Ideal S1024x1024 .f32) (x1 : Vec Ideal S512x1024 .f32) (x2 : Vec Ideal S1x512 .f32)
    (X : Cert.Spec.Mat 8192 1024) (W : Cert.Spec.Mat 512 1024) (B : Fin 512 → EReal) (p : Fin 1024) (e : Fin 512) (r : Fin 8192)
    (hx : ∀ k, (x0 : S1024x1024.Idx → EReal) (ix2 p k) = X r k) (hw : ∀ k, (x1 : S512x1024.Idx → EReal) (ix2 e k) = W e k)
    (hb : (x2 : S1x512.Idx → EReal) (ix2 0 e) = B e) :
    ((View.canon [⟨Rect.unit (s := S1024x512) ![0, 0] S1024x512.size inb_S1024x512_S1024x512_0_0,
        linPay s (View.ld x0 (Rect.unit (s := S1024x1024) ![0, 0] S1024x1024.size inb_S1024x1024_S1024x1024_0_0))
          (View.ld x1 (Rect.unit (s := S512x1024) ![0, 0] S512x1024.size inb_S512x1024_S512x1024_0_0))
          (View.ld x2 (Rect.unit (s := S1x512) ![0, 0] S1x512.size inb_S1x512_S1x512_0_0))⟩] : Vec Ideal S1024x512 .bf16) : S1024x512.Idx → EReal) (ix2 p e)
      = Cert.Spec.affineScaled X W B (s : EReal) r e := by
  rw [View.canon_unit_zero lin_hz, View.ld_unit_zero lin_hz, View.ld_unit_zero lin_hz, View.ld_unit_zero lin_hz, linPay_apply, hb]
  exact congrArg (fun z => (z + B e) * (s : EReal)) (Finset.sum_congr rfl fun k _ => by rw [hx, hw])

end Cert.KernelIdeal.Hand

end
-- ==== Proof.KI.ValLin0.lean ====
import proofs.«404408_j69475390980772_3_alg».proof.Proof.KI.SpecLin0
import proofs.«404408_j69475390980772_3_alg».proof.Proof.KI.ValLin
import proofs.«404408_j69475390980772_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

abbrev scale0 : EReal := Named.named (F := Ideal) κ "inv_scale" (φ := .f32) 0x3D3504F3#32

def xMat0 (c : Dev nD) : Cert.Spec.Mat 8192 1024 := fun r k => (V c main_arg0 : S8192x1024.Idx → EReal) (ix2 r k)
def wMat0 (c : Dev nD) : Cert.Spec.Mat 512 1024 := fun e k => (V c main_arg3 : S512x1024.Idx → EReal) (ix2 e k)
def bRow0 (c : Dev nD) : Fin 512 → EReal := fun e => (V c main_v0 : S1x512.Idx → EReal) (ix2 0 e)

theorem idx_facts0_all : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- the output window's block index at t is (t, 0), and a block has 1024 rows
theorem emb0_o (t : Fin cfg0.N) (p : Fin 1024) (e : Fin 512) (r : Fin 8192) (hr : r.val = 1024 * t.val + p.val) :
    ((cfg0.win 3).blk t).view.emb (ix2 p e) = (ix2 r e : S8192x512.Idx) := by
  obtain ⟨-, -, -, -, -, -, h0, h1⟩ := idx_facts0_all t
  exact Shape.idx_ext₂ (by show win0_3.index t 0 * 1024 + 1 * p.val = r.val; rw [h0, hr]; omega)
    (win0_3.rect_emb_val_of_index_zero t _ h1 _)

def out0_G (c : Dev nD) : S8192x512.Idx → EReal :=
  fun i => Cert.Spec.affineScaled (xMat0 V c) (wMat0 V c) (bRow0 V c) scale0 (i 0) (i 1)

-- the index facts place each block entry in its array; the rest is linBlock_eq
theorem flushed_eq0 (c : Dev nD) (t : Fin cfg0.N) :
    (dat0 V c).flushed 3 t = ((cfg0.win 3).blk t).view.read (Elt Ideal) (out0_G V c) := by
  obtain ⟨x0, x1, w0, w1, b0, b1, -⟩ := idx_facts0_all t
  show (cfg0.win 3).cut (grid0.coords t) ((dat0 V c).after 3 t) = _
  rw [after0_3]
  funext j
  obtain ⟨p, e, rfl⟩ : ∃ (p : Fin 1024) (e : Fin 512), j = ix2 p e := ⟨j 0, j 1, eq_ix2 j⟩
  have hr : 1024 * t.val + p.val < 8192 := by have := p.isLt; have := t.isLt.trans_eq N_0; omega
  rw [View.read_apply, emb0_o t p e ⟨_, hr⟩ rfl]
  exact linBlock_eq scale0 _ _ _ _ _ _ p e ⟨_, hr⟩
    (fun k => congrArg (V c main_arg0) (show ((cfg0.win 0).blk t).view.emb (ix2 p k) = ix2 ⟨_, hr⟩ k from Shape.idx_ext₂
      (by show win0_0.index t 0 * 1024 + 1 * p.val = 1024 * t.val + p.val; rw [x0]; omega) (win0_0.rect_emb_val_of_index_zero t _ x1 _)))
    (fun k => congrArg (V c main_arg3) (show ((cfg0.win 1).blk t).view.emb (ix2 e k) = ix2 e k from Shape.idx_ext₂
      (win0_1.rect_emb_val_of_index_zero t _ w0 _) (win0_1.rect_emb_val_of_index_zero t _ w1 _)))
    (congrArg (V c main_v0) (show ((cfg0.win 2).blk t).view.emb (ix2 0 e) = ix2 0 e from Shape.idx_ext₂
      (win0_2.rect_emb_val_of_index_zero t _ b0 _) (win0_2.rect_emb_val_of_index_zero t _ b1 _)))

-- row r belongs to the block of point r / 1024
theorem cover_rows0 (i : S8192x512.Idx) :
    ∃ t : Fin cfg0.N, (cfg0.win 3).flush t = true ∧ i ∈ ((cfg0.win 3).blk t).view.set := by
  obtain ⟨r, d, rfl⟩ : ∃ (r : Fin 8192) (d : Fin 512), i = ix2 r d := ⟨i 0, i 1, eq_ix2 i⟩
  have hlt : r.val / 1024 < cfg0.N := by have := r.isLt; rw [show cfg0.N = 8 from N_0]; omega
  refine ⟨⟨_, hlt⟩, flush0_3 _, ?_⟩
  rw [← emb0_o ⟨_, hlt⟩ ⟨r.val % 1024, Nat.mod_lt _ (by decide)⟩ d r (by show _ = 1024 * (r.val / 1024) + r.val % 1024; omega)]
  exact View.emb_mem_set _ _

theorem arr0 (c : Dev nD) (r : Fin 8192) (d : Fin 512) :
    ((dat0 V c).arrAt 3 cfg0.N : S8192x512.Idx → EReal) (ix2 r d)
      = Cert.Spec.affineScaled (xMat0 V c) (wMat0 V c) (bRow0 V c) scale0 r d := by
  rw [(dat0 V c).arrAt_eq_of_cover 3 (out0_G V c) (fun t _ => flushed_eq0 V c t) cover_rows0]
  rfl

end Cert.KernelIdeal.Hand

end
-- ==== Proof.KI.ValLin1.lean ====
import proofs.«404408_j69475390980772_3_alg».proof.Proof.KI.SpecLin1
import proofs.«404408_j69475390980772_3_alg».proof.Proof.KI.ValLin
import proofs.«404408_j69475390980772_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

abbrev scale1 : EReal := (Scalar.ofBits .f32 0x3F800000#32 : Ideal .f32)

def xMat1 (c : Dev nD) : Cert.Spec.Mat 8192 1024 := fun r k => (V c main_arg1 : S8192x1024.Idx → EReal) (ix2 r k)
def wMat1 (c : Dev nD) : Cert.Spec.Mat 512 1024 := fun e k => (V c main_arg5 : S512x1024.Idx → EReal) (ix2 e k)
def bRow1 (c : Dev nD) : Fin 512 → EReal := fun e => (V c main_v2 : S1x512.Idx → EReal) (ix2 0 e)

theorem idx_facts1_all : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

-- the output window's block index at t is (t, 0), and a block has 1024 rows
theorem emb1_o (t : Fin cfg1.N) (p : Fin 1024) (e : Fin 512) (r : Fin 8192) (hr : r.val = 1024 * t.val + p.val) :
    ((cfg1.win 3).blk t).view.emb (ix2 p e) = (ix2 r e : S8192x512.Idx) := by
  obtain ⟨-, -, -, -, -, -, h0, h1⟩ := idx_facts1_all t
  exact Shape.idx_ext₂ (by show win1_3.index t 0 * 1024 + 1 * p.val = r.val; rw [h0, hr]; omega)
    (win1_3.rect_emb_val_of_index_zero t _ h1 _)

def out1_G (c : Dev nD) : S8192x512.Idx → EReal :=
  fun i => Cert.Spec.affineScaled (xMat1 V c) (wMat1 V c) (bRow1 V c) scale1 (i 0) (i 1)

-- the index facts place each block entry in its array; the rest is linBlock_eq
theorem flushed_eq1 (c : Dev nD) (t : Fin cfg1.N) :
    (dat1 V c).flushed 3 t = ((cfg1.win 3).blk t).view.read (Elt Ideal) (out1_G V c) := by
  obtain ⟨x0, x1, w0, w1, b0, b1, -⟩ := idx_facts1_all t
  show (cfg1.win 3).cut (grid1.coords t) ((dat1 V c).after 3 t) = _
  rw [after1_3]
  funext j
  obtain ⟨p, e, rfl⟩ : ∃ (p : Fin 1024) (e : Fin 512), j = ix2 p e := ⟨j 0, j 1, eq_ix2 j⟩
  have hr : 1024 * t.val + p.val < 8192 := by have := p.isLt; have := t.isLt.trans_eq N_1; omega
  rw [View.read_apply, emb1_o t p e ⟨_, hr⟩ rfl]
  exact linBlock_eq scale1 _ _ _ _ _ _ p e ⟨_, hr⟩
    (fun k => congrArg (V c main_arg1) (show ((cfg1.win 0).blk t).view.emb (ix2 p k) = ix2 ⟨_, hr⟩ k from Shape.idx_ext₂
      (by show win1_0.index t 0 * 1024 + 1 * p.val = 1024 * t.val + p.val; rw [x0]; omega) (win1_0.rect_emb_val_of_index_zero t _ x1 _)))
    (fun k => congrArg (V c main_arg5) (show ((cfg1.win 1).blk t).view.emb (ix2 e k) = ix2 e k from Shape.idx_ext₂
      (win1_1.rect_emb_val_of_index_zero t _ w0 _) (win1_1.rect_emb_val_of_index_zero t _ w1 _)))
    (congrArg (V c main_v2) (show ((cfg1.win 2).blk t).view.emb (ix2 0 e) = ix2 0 e from Shape.idx_ext₂
      (win1_2.rect_emb_val_of_index_zero t _ b0 _) (win1_2.rect_emb_val_of_index_zero t _ b1 _)))

-- row r belongs to the block of point r / 1024
theorem cover_rows1 (i : S8192x512.Idx) :
    ∃ t : Fin cfg1.N, (cfg1.win 3).flush t = true ∧ i ∈ ((cfg1.win 3).blk t).view.set := by
  obtain ⟨r, d, rfl⟩ : ∃ (r : Fin 8192) (d : Fin 512), i = ix2 r d := ⟨i 0, i 1, eq_ix2 i⟩
  have hlt : r.val / 1024 < cfg1.N := by have := r.isLt; rw [show cfg1.N = 8 from N_1]; omega
  refine ⟨⟨_, hlt⟩, flush1_3 _, ?_⟩
  rw [← emb1_o ⟨_, hlt⟩ ⟨r.val % 1024, Nat.mod_lt _ (by decide)⟩ d r (by show _ = 1024 * (r.val / 1024) + r.val % 1024; omega)]
  exact View.emb_mem_set _ _

theorem arr1 (c : Dev nD) (r : Fin 8192) (d : Fin 512) :
    ((dat1 V c).arrAt 3 cfg1.N : S8192x512.Idx → EReal) (ix2 r d)
      = Cert.Spec.affineScaled (xMat1 V c) (wMat1 V c) (bRow1 V c) scale1 r d := by
  rw [(dat1 V c).arrAt_eq_of_cover 3 (out1_G V c) (fun t _ => flushed_eq1 V c t) cover_rows1]
  rfl

end Cert.KernelIdeal.Hand

end
-- ==== Proof.KI.ValLin2.lean ====
import proofs.«404408_j69475390980772_3_alg».proof.Proof.KI.SpecLin2
import proofs.«404408_j69475390980772_3_alg».proof.Proof.KI.ValLin
import proofs.«404408_j69475390980772_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

abbrev scale2 : EReal := (Scalar.ofBits .f32 0x3F800000#32 : Ideal .f32)

def xMat2 (c : Dev nD) : Cert.Spec.Mat 8192 1024 := fun r k => (V c main_arg2 : S8192x1024.Idx → EReal) (ix2 r k)
def wMat2 (c : Dev nD) : Cert.Spec.Mat 512 1024 := fun e k => (V c main_arg7 : S512x1024.Idx → EReal) (ix2 e k)
def bRow2 (c : Dev nD) : Fin 512 → EReal := fun e => (V c main_v4 : S1x512.Idx → EReal) (ix2 0 e)

theorem idx_facts2_all : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

-- the output window's block index at t is (t, 0), and a block has 1024 rows
theorem emb2_o (t : Fin cfg2.N) (p : Fin 1024) (e : Fin 512) (r : Fin 8192) (hr : r.val = 1024 * t.val + p.val) :
    ((cfg2.win 3).blk t).view.emb (ix2 p e) = (ix2 r e : S8192x512.Idx) := by
  obtain ⟨-, -, -, -, -, -, h0, h1⟩ := idx_facts2_all t
  exact Shape.idx_ext₂ (by show win2_3.index t 0 * 1024 + 1 * p.val = r.val; rw [h0, hr]; omega)
    (win2_3.rect_emb_val_of_index_zero t _ h1 _)

def out2_G (c : Dev nD) : S8192x512.Idx → EReal :=
  fun i => Cert.Spec.affineScaled (xMat2 V c) (wMat2 V c) (bRow2 V c) scale2 (i 0) (i 1)

-- the index facts place each block entry in its array; the rest is linBlock_eq
theorem flushed_eq2 (c : Dev nD) (t : Fin cfg2.N) :
    (dat2 V c).flushed 3 t = ((cfg2.win 3).blk t).view.read (Elt Ideal) (out2_G V c) := by
  obtain ⟨x0, x1, w0, w1, b0, b1, -⟩ := idx_facts2_all t
  show (cfg2.win 3).cut (grid2.coords t) ((dat2 V c).after 3 t) = _
  rw [after2_3]
  funext j
  obtain ⟨p, e, rfl⟩ : ∃ (p : Fin 1024) (e : Fin 512), j = ix2 p e := ⟨j 0, j 1, eq_ix2 j⟩
  have hr : 1024 * t.val + p.val < 8192 := by have := p.isLt; have := t.isLt.trans_eq N_2; omega
  rw [View.read_apply, emb2_o t p e ⟨_, hr⟩ rfl]
  exact linBlock_eq scale2 _ _ _ _ _ _ p e ⟨_, hr⟩
    (fun k => congrArg (V c main_arg2) (show ((cfg2.win 0).blk t).view.emb (ix2 p k) = ix2 ⟨_, hr⟩ k from Shape.idx_ext₂
      (by show win2_0.index t 0 * 1024 + 1 * p.val = 1024 * t.val + p.val; rw [x0]; omega) (win2_0.rect_emb_val_of_index_zero t _ x1 _)))
    (fun k => congrArg (V c main_arg7) (show ((cfg2.win 1).blk t).view.emb (ix2 e k) = ix2 e k from Shape.idx_ext₂
      (win2_1.rect_emb_val_of_index_zero t _ w0 _) (win2_1.rect_emb_val_of_index_zero t _ w1 _)))
    (congrArg (V c main_v4) (show ((cfg2.win 2).blk t).view.emb (ix2 0 e) = ix2 0 e from Shape.idx_ext₂
      (win2_2.rect_emb_val_of_index_zero t _ b0 _) (win2_2.rect_emb_val_of_index_zero t _ b1 _)))

-- row r belongs to the block of point r / 1024
theorem cover_rows2 (i : S8192x512.Idx) :
    ∃ t : Fin cfg2.N, (cfg2.win 3).flush t = true ∧ i ∈ ((cfg2.win 3).blk t).view.set := by
  obtain ⟨r, d, rfl⟩ : ∃ (r : Fin 8192) (d : Fin 512), i = ix2 r d := ⟨i 0, i 1, eq_ix2 i⟩
  have hlt : r.val / 1024 < cfg2.N := by have := r.isLt; rw [show cfg2.N = 8 from N_2]; omega
  refine ⟨⟨_, hlt⟩, flush2_3 _, ?_⟩
  rw [← emb2_o ⟨_, hlt⟩ ⟨r.val % 1024, Nat.mod_lt _ (by decide)⟩ d r (by show _ = 1024 * (r.val / 1024) + r.val % 1024; omega)]
  exact View.emb_mem_set _ _

theorem arr2 (c : Dev nD) (r : Fin 8192) (d : Fin 512) :
    ((dat2 V c).arrAt 3 cfg2.N : S8192x512.Idx → EReal) (ix2 r d)
      = Cert.Spec.affineScaled (xMat2 V c) (wMat2 V c) (bRow2 V c) scale2 r d := by
  rw [(dat2 V c).arrAt_eq_of_cover 3 (out2_G V c) (fun t _ => flushed_eq2 V c t) cover_rows2]
  rfl

end Cert.KernelIdeal.Hand

end
-- ==== Proof.Online.lean ====
import proofs.«404408_j69475390980772_3_alg».proof.Proof.Spec
import Mathlib.Data.EReal.Operations
import Mathlib.Data.Finset.Lattice.Fold
import Mathlib.Logic.Equiv.Fin.Basic
import Mathlib.Algebra.BigOperators.Fin
import Mathlib.Analysis.Complex.Exponential

noncomputable section

namespace Cert.Online

open Idealize.ShloMosaic

def tileIdx (i : Fin 8) (r : Fin 1024) : Fin 8192 := ⟨1024 * i.val + r.val, by omega⟩

theorem tileIdx_val (i : Fin 8) (r : Fin 1024) : (tileIdx i r).val = 1024 * i.val + r.val := rfl

/-- (tile, row in the tile) ↦ row is the standard bijection Fin 8 × Fin 1024 ≃ Fin (8 * 1024). -/
theorem tileIdx_eq (p : Fin 8 × Fin 1024) : tileIdx p.1 p.2 = finProdFinEquiv p := Fin.ext (Nat.add_comm _ _)

theorem sum_tiles (f : Fin 8192 → EReal) : ∑ r, f r = ∑ i : Fin 8, ∑ r' : Fin 1024, f (tileIdx i r') :=
  ((Fintype.sum_prod_type' fun i r' => f (tileIdx i r')).symm.trans
    (Fintype.sum_equiv finProdFinEquiv _ f fun p => congrArg f (tileIdx_eq p))).symm

theorem sup_tiles (f : Fin 8192 → EReal) :
    Finset.univ.sup f = Finset.univ.sup fun i : Fin 8 => Finset.univ.sup fun r' : Fin 1024 => f (tileIdx i r') := by
  simp only [Finset.sup_univ_eq_iSup]
  rw [← (finProdFinEquiv (m := 8) (n := 1024)).iSup_comp (g := f), iSup_prod]
  exact iSup_congr fun i => iSup_congr fun r => congrArg f (tileIdx_eq (i, r)).symm

theorem sum_const_1024 (x : EReal) : ∑ _r : Fin 1024, x = (1024 : EReal) * x := by
  rw [Finset.sum_const, Finset.card_univ, Fintype.card_fin, EReal.nsmul_eq_mul]
  norm_cast

theorem sup_const_1024 (x : EReal) : (Finset.univ.sup fun _r : Fin 1024 => x) = x :=
  Finset.sup_const Finset.univ_nonempty x

/-- A nonempty finite supremum is attained, so a supremum of reals is real. -/
theorem sup_real {ι : Type*} (s : Finset ι) (hs : s.Nonempty) (f : ι → EReal)
    (hf : ∀ i ∈ s, ∃ y : ℝ, f i = (y : EReal)) : ∃ y : ℝ, s.sup f = (y : EReal) := by
  obtain ⟨i, hi, h⟩ := Finset.exists_mem_eq_sup s hs f
  rw [h]
  exact hf i hi

theorem coe_sum {ι : Type*} (s : Finset ι) (g : ι → ℝ) :
    ((∑ i ∈ s, g i : ℝ) : EReal) = ∑ i ∈ s, (g i : EReal) :=
  map_sum (⟨⟨Real.toEReal, EReal.coe_zero⟩, EReal.coe_add⟩ : ℝ →+ EReal) g s

theorem exp_coe_sub (x y : ℝ) : Ideal.exp ((x : EReal) - (y : EReal)) = ((Real.exp (x - y) : ℝ) : EReal) := rfl

/-- exp (a − m) · exp (m − m') = exp (a − m'): moving the reference point of a sum of exponentials of reals. -/
theorem rescale {ι : Type*} (T : Finset ι) (a : ι → Fin 1024 → EReal) (ha : ∀ i r, ∃ y : ℝ, a i r = (y : EReal))
    (m m' : ℝ) :
    (∑ i ∈ T, ∑ r, Ideal.exp (a i r - (m : EReal))) * Ideal.exp ((m : EReal) - (m' : EReal))
      = ∑ i ∈ T, ∑ r, Ideal.exp (a i r - (m' : EReal)) := by
  choose b hb using ha
  simp only [hb, exp_coe_sub, ← coe_sum, ← EReal.coe_mul, Finset.sum_mul, ← Real.exp_add, sub_add_sub_cancel]

def step (a : Fin 1024 → EReal) (p : EReal × EReal) : EReal × EReal :=
  (max p.1 (Finset.univ.sup a), p.2 * Ideal.exp (p.1 - max p.1 (Finset.univ.sup a)) + ∑ r, Ideal.exp (a r - max p.1 (Finset.univ.sup a)))

def run (a : Fin 8 → Fin 1024 → EReal) : (n : ℕ) → n ≤ 8 → EReal × EReal
  | 0, _ => (⊥, 0)
  | n + 1, h => step (a ⟨n, by omega⟩) (run a n (by omega))

def firstTiles (n : ℕ) : Finset (Fin 8) := Finset.univ.filter fun i => i.val < n

theorem firstTiles_zero : firstTiles 0 = ∅ :=
  Finset.filter_false_of_mem fun i _ => i.val.not_lt_zero

theorem firstTiles_succ (n : ℕ) (h : n < 8) : firstTiles (n + 1) = insert ⟨n, h⟩ (firstTiles n) := by
  ext i
  simp only [firstTiles, Finset.mem_filter, Finset.mem_univ, true_and, Finset.mem_insert, Fin.ext_iff]
  omega

theorem not_mem_firstTiles (n : ℕ) (h : n < 8) : (⟨n, h⟩ : Fin 8) ∉ firstTiles n := by
  simp [firstTiles]

theorem firstTiles_eight : firstTiles 8 = Finset.univ :=
  Finset.filter_true_of_mem fun i _ => i.isLt

/-- After n real tiles the pair is (their maximum, their sum of exp (· − maximum)): exp (m − m') moves the old sum to the new maximum m'. -/
theorem run_prefix (a : Fin 8 → Fin 1024 → EReal) (ha : ∀ i r, ∃ y : ℝ, a i r = (y : EReal)) (n : ℕ) (h : n ≤ 8) :
    (run a n h).1 = (firstTiles n).sup (fun i => Finset.univ.sup (a i))
    ∧ (run a n h).2 = ∑ i ∈ firstTiles n, ∑ r, Ideal.exp (a i r - (run a n h).1) := by
  have hR : ∀ T : Finset (Fin 8), T.Nonempty → ∃ y : ℝ, T.sup (fun i => Finset.univ.sup (a i)) = (y : EReal) :=
    fun T hT => sup_real _ hT _ fun i _ => sup_real _ Finset.univ_nonempty _ fun r _ => ha i r
  induction n with
  | zero => simp [run, firstTiles_zero]
  | succ n ih =>
    obtain ⟨h1, h2⟩ := ih (Nat.le_of_succ_le h)
    have hs := firstTiles_succ n h
    have hmax : (run a (n + 1) h).1 = (firstTiles (n + 1)).sup (fun i => Finset.univ.sup (a i)) := by
      rw [hs, Finset.sup_insert, ← h1, max_comm]
      rfl
    obtain ⟨m', hm'⟩ := hR _ (hs ▸ Finset.insert_nonempty _ _)
    rw [← hmax] at hm'
    refine ⟨hmax, ?_⟩
    rw [hs, Finset.sum_insert (not_mem_firstTiles n h)]
    show (run a n _).2 * Ideal.exp ((run a n _).1 - (run a (n + 1) h).1)
      + ∑ r, Ideal.exp (_ - (run a (n + 1) h).1) = _
    rw [hm', add_comm]
    congr 1
    rcases (firstTiles n).eq_empty_or_nonempty with hE | hN
    · rw [h2, hE, Finset.sum_empty, Finset.sum_empty, zero_mul]
    · obtain ⟨m, hm⟩ := hR _ hN
      rw [← h1] at hm
      rw [h2, hm]
      exact rescale _ a ha m m'

theorem run_column (f : Fin 8192 → EReal) (hf : ∀ r, ∃ y : ℝ, f r = (y : EReal)) :
    (run (fun i r => f (tileIdx i r)) 8 le_rfl).1 = Finset.univ.sup f
    ∧ (run (fun i r => f (tileIdx i r)) 8 le_rfl).2 = ∑ r, Ideal.exp (f r - Finset.univ.sup f) := by
  obtain ⟨h1, h2⟩ := run_prefix (fun i r => f (tileIdx i r)) (fun _ _ => hf _) 8 le_rfl
  rw [firstTiles_eight] at h1 h2
  have h1' := h1.trans (sup_tiles f).symm
  exact ⟨h1', by rw [h2, h1', sum_tiles fun r => Ideal.exp (f r - Finset.univ.sup f)]⟩

end Cert.Online

end
-- ==== Proof.Algebra.lean ====
import proofs.«404408_j69475390980772_3_alg».proof.Proof.Spec
import proofs.«404408_j69475390980772_3_alg».proof.Proof.Online
import Mathlib.Data.EReal.Operations
import Mathlib.Data.Finset.Lattice.Fold
import Mathlib.Algebra.BigOperators.Ring.Finset
import Mathlib.Algebra.Order.BigOperators.Ring.Finset
import Mathlib.Analysis.SpecialFunctions.Exp
import Mathlib.Tactic.Ring

namespace Cert.Algebra

open Cert.Spec Cert.Online Idealize.ShloMosaic

theorem affine_real (x : Mat 8192 1024) (w : Mat 512 1024) (b : Fin 512 → EReal)
    (hx : ∀ r j, ∃ y : ℝ, x r j = (y : EReal)) (hw : ∀ r j, ∃ y : ℝ, w r j = (y : EReal))
    (hb : ∀ j, ∃ y : ℝ, b j = (y : EReal)) :
    ∀ r d, ∃ y : ℝ, affine x w b r d = (y : EReal) := by
  choose x' hx' using hx
  choose w' hw' using hw
  choose b' hb' using hb
  exact fun r d => ⟨(∑ k : Fin 1024, x' r k * w' d k) + b' d,
    by simp only [affine, hx', hw', hb', EReal.coe_add, coe_sum, EReal.coe_mul]⟩

theorem affineScaled_real (x : Mat 8192 1024) (w : Mat 512 1024) (b : Fin 512 → EReal) (s : ℝ)
    (hx : ∀ r j, ∃ y : ℝ, x r j = (y : EReal)) (hw : ∀ r j, ∃ y : ℝ, w r j = (y : EReal)) (hb : ∀ j, ∃ y : ℝ, b j = (y : EReal)) :
    ∀ r d, ∃ y : ℝ, affineScaled x w b (s : EReal) r d = (y : EReal) := by
  intro r d
  obtain ⟨y, hy⟩ := affine_real x w b hx hw hb r d
  exact ⟨y * s, by simp only [affineScaled, hy, EReal.coe_mul]⟩

theorem score_coe (Q K : Fin 8192 → Fin 512 → ℝ) (r c : Fin 8192) :
    score (fun r d => (Q r d : EReal)) (fun r d => (K r d : EReal)) r c
      = ((∑ d : Fin 512, Q r d * K c d : ℝ) : EReal) := by
  simp only [score, coe_sum, EReal.coe_mul]

/-- The sum is linear, x·(1/D) = x/D for real x, and x = x·1, 0 = x·0: the two masked score matrices are one real matrix. -/
theorem masked_eq (q k : Mat 8192 512) (D : ℝ) (hD : D ≠ 0) (hq : ∀ r d, ∃ y : ℝ, q r d = (y : EReal))
    (hk : ∀ r d, ∃ y : ℝ, k r d = (y : EReal)) :
    masked (fun r d => q r d * ((1 / D : ℝ) : EReal)) k = refMasked q k (D : EReal)
      ∧ ∀ r c, ∃ y : ℝ, refMasked q k (D : EReal) r c = (y : EReal) := by
  choose Q hQ using hq
  choose K hK using hk
  have e : ∀ r c, refMasked q k (D : EReal) r c
      = ((if c.val ≤ r.val then (∑ d : Fin 512, Q r d * K c d) * (1 / D) else 0 : ℝ) : EReal) := fun r c => by
    simp only [refMasked, score, hQ, hK, Ideal.div_coe hD, mul_ite, mul_one, mul_zero, ← EReal.coe_mul, ← coe_sum,
      apply_ite Real.toEReal, EReal.coe_zero]
  refine ⟨funext₂ fun r c => (e r c).symm ▸ ?_, fun r c => ⟨_, e r c⟩⟩
  simp only [masked, score, hQ, hK, ← EReal.coe_mul, ← coe_sum, apply_ite Real.toEReal, EReal.coe_zero, Finset.sum_mul,
    mul_right_comm]

/-- A real column has a real maximum m and a positive real sum L; then exp (s − m) · (v · (1/L)) = (exp (s − m) / L) · v. -/
theorem outK_eq_refOut (s : Mat 8192 8192) (v : Mat 8192 512) (hs : ∀ r c, ∃ y : ℝ, s r c = (y : EReal))
    (hv : ∀ c d, ∃ y : ℝ, v c d = (y : EReal)) : outK s (colMax s) (scaledV v (colSum s)) = refOut s v := by
  choose S hS using hs
  choose V hV using hv
  funext r d
  simp only [outK, refOut, scaledV]
  refine Finset.sum_congr rfl (fun c _ => ?_)
  obtain ⟨m, hm⟩ : ∃ m : ℝ, colMax s c = (m : EReal) :=
    sup_real _ Finset.univ_nonempty _ fun r _ => ⟨S r c, hS r c⟩
  have hL : colSum s c = ((∑ r : Fin 8192, Real.exp (S r c - m) : ℝ) : EReal) := by
    simp only [colSum, hm, hS, exp_coe_sub, coe_sum]
  have hpos : 0 < ∑ r : Fin 8192, Real.exp (S r c - m) :=
    Finset.sum_pos (fun _ _ => Real.exp_pos _) Finset.univ_nonempty
  rw [hm, hL, hS, hV, Ideal.div_coe hpos.ne', Ideal.div_coe hpos.ne', exp_coe_sub, one_mul,
    ← EReal.coe_mul, ← EReal.coe_mul, ← EReal.coe_mul, ← EReal.coe_mul]
  exact congrArg Real.toEReal (by ring)

theorem kernelOut_eq_referenceOut (q k v : Mat 8192 1024) (wq wk wv : Mat 512 1024) (bq bk bv : Fin 512 → EReal)
    (hq : ∀ r j, ∃ y : ℝ, q r j = (y : EReal)) (hk : ∀ r j, ∃ y : ℝ, k r j = (y : EReal)) (hv : ∀ r j, ∃ y : ℝ, v r j = (y : EReal))
    (hwq : ∀ r j, ∃ y : ℝ, wq r j = (y : EReal)) (hwk : ∀ r j, ∃ y : ℝ, wk r j = (y : EReal)) (hwv : ∀ r j, ∃ y : ℝ, wv r j = (y : EReal))
    (hbq : ∀ j, ∃ y : ℝ, bq j = (y : EReal)) (hbk : ∀ j, ∃ y : ℝ, bk j = (y : EReal)) (hbv : ∀ j, ∃ y : ℝ, bv j = (y : EReal))
    (D : ℝ) (hD : 0 < D) :
    kernelOut q k v wq wk wv bq bk bv (((1 / D : ℝ)) : EReal) (1 : EReal) = referenceOut q k v wq wk wv bq bk bv (D : EReal) := by
  obtain ⟨e, hs⟩ := masked_eq _ _ D hD.ne' (affine_real q wq bq hq hwq hbq) (affine_real k wk bk hk hwk hbk)
  unfold kernelOut referenceOut affineScaled
  simp only [mul_one]
  rw [e]
  exact outK_eq_refOut _ _ hs (affine_real v wv bv hv hwv hbv)

end Cert.Algebra
-- ==== Proof.KI.ValStatsMask.lean ====
import proofs.«404408_j69475390980772_3_alg».proof.Proof.KI.Spec3
import proofs.«404408_j69475390980772_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- 1024·T + x stays below 2³², so the 32-bit sum is the exact one.
private theorem toNat_tile_word (T : Fin 8) (x : Fin 1024) :
    (Scalar.muli (BitVec.ofNat 32 T.val) 1024#32 + BitVec.ofNat 32 x.val).toNat = 1024 * T.val + x.val := by
  show (BitVec.ofNat 32 T.val * 1024#32 + BitVec.ofNat 32 x.val).toNat = _
  simp only [BitVec.toNat_add, BitVec.toNat_mul, BitVec.toNat_ofNat]
  omega

theorem pay8_at (J I : Fin 8) (q k : Vec Ideal S1024x512 .bf16) (r e : Fin 1024) :
    k3_pay8 (BitVec.ofNat 32 J.val) (BitVec.ofNat 32 I.val) q k (ix2 r e)
      = if 1024 * J.val + e.val ≤ 1024 * I.val + r.val then k3_pay5 q k (ix2 r e) else (0 : EReal) := by
  have hr := toNat_tile_word I r
  have he := toNat_tile_word J e
  have hiff := StableHlo.Predicate.sge_iff_toNat (lt_of_eq_of_lt hr (by omega)) (lt_of_eq_of_lt he (by omega))
  rw [hr, he] at hiff
  unfold k3_pay8
  show Scalar.select (IntOp.cmpi .sge (broadcastTo S1024x1024 _ _ (ix2 r e)) (broadcastTo S1024x1024 _ _ (ix2 r e)))
      (k3_pay5 q k (ix2 r e)) (Ideal.ofBits .f32 0x00000000#32) = _
  rw [broadcastTo_a1_ab_apply, broadcastTo_1b_ab_apply]
  show Scalar.select (IntOp.cmpi .sge
        (_ + iota .tc S1024x1 32 [0] iota_S1024x1_d0_w32 (ix2 r (0 : Fin 1)))
        (_ + iota .tc S1x1024 32 [1] iota_S1x1024_d1_w32 (ix2 (0 : Fin 1) e))) _ _ = _
  rw [iota_single_apply, iota_single_apply, Ideal.ofBits_zero_f32]
  show Scalar.select (IntOp.cmpi .sge (Scalar.muli (BitVec.ofNat 32 I.val) 1024#32 + BitVec.ofNat 32 r.val)
        (Scalar.muli (BitVec.ofNat 32 J.val) 1024#32 + BitVec.ofNat 32 e.val)) _ (0 : EReal) = _
  by_cases h : 1024 * J.val + e.val ≤ 1024 * I.val + r.val
  · rw [hiff.mpr h, select_one, if_pos h]
  · rw [eq_zero_of_ne_one fun hb => h (hiff.mp hb), select_zero, if_neg h]

end Cert.KernelIdeal.Hand

end
-- ==== Proof.KI.ValStatsBlocks.lean ====
import proofs.«404408_j69475390980772_3_alg».proof.Proof.KI.Spec3
import proofs.«404408_j69475390980772_3_alg».proof.Proof.Online
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem ValueIdx

variable (V : (c : Dev nD) → (b : Ref sig .tc) → Buf (Elt Ideal) ((c : Thread nD τ).loc b))

private theorem idx_facts3_in : ∀ t : Fin cfg3.N,
    win3_0.index t (0 : Fin 2) = t.val % 8 ∧ win3_0.index t (1 : Fin 2) = 0
    ∧ win3_1.index t (0 : Fin 2) = t.val / 8 ∧ win3_1.index t (1 : Fin 2) = 0
    ∧ ((grid3.coords t) 0).val = t.val / 8 ∧ ((grid3.coords t) 1).val = t.val % 8 :=
  (by decide +kernel : ∀ t : Fin grid3.N, _)

theorem coords3 (t : Fin cfg3.N) : ((grid3.coords t) 0).val = t.val / 8 ∧ ((grid3.coords t) 1).val = t.val % 8 :=
  (idx_facts3_in t).2.2.2.2

-- Entry (r, d) of row tile T is entry (1024·T + r, d) of the whole matrix; at point t the query tile is t % 8 and the key tile is t / 8.
theorem blk3_at (c : Dev nD) (t : Fin cfg3.N) (J I : Fin 8) (hJ : t.val / 8 = J.val) (hI : t.val % 8 = I.val)
    (r e : Fin 1024) (d : Fin 512) :
    (iblk3 V c 0 t : Vec Ideal S1024x512 .bf16) (ix2 r d)
        = (V c main_v1 : S8192x512.Idx → EReal) (ix2 (Cert.Online.tileIdx I r) d)
      ∧ (iblk3 V c 1 t : Vec Ideal S1024x512 .bf16) (ix2 e d)
        = (V c main_v3 : S8192x512.Idx → EReal) (ix2 (Cert.Online.tileIdx J e) d) := by
  obtain ⟨h0, h1, h2, h3, -⟩ := idx_facts3_in t
  unfold iblk3
  rw [View.read_apply, View.read_apply]
  refine ⟨congrArg (V c main_v1) (Shape.idx_ext₂ ?_ ?_), congrArg (V c main_v3) (Shape.idx_ext₂ ?_ ?_)⟩
  · show win3_0.index t 0 * 1024 + 1 * r.val = 1024 * I.val + r.val
    rw [h0, hI]; omega
  · show win3_0.index t 1 * 512 + 1 * d.val = d.val
    rw [h1]; omega
  · show win3_1.index t 0 * 1024 + 1 * e.val = 1024 * J.val + e.val
    rw [h2, hJ]; omega
  · show win3_1.index t 1 * 512 + 1 * d.val = d.val
    rw [h3]; omega

end Cert.KernelIdeal.Hand

end
-- ==== Proof.KI.ValStatsCover.lean ====
import proofs.«404408_j69475390980772_3_alg».proof.Proof.KI.Spec3
import proofs.«404408_j69475390980772_3_alg».proof.Proof.Online
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

def pairAt3 (p : Vec Ideal S1x1024 .f32 × Vec Ideal S1x1024 .f32) (e : Fin 1024) : EReal × EReal :=
  (p.1 (ix2 0 e), p.2 (ix2 0 e))

private abbrev rowOf (G : Fin 8192 → EReal) : S1x8192.Idx → EReal := fun i => G ⟨(i 1).val, (i 1).isLt⟩

private theorem idx_facts3 : ∀ t : Fin cfg3.N, win3_2.index t (0 : Fin 2) = 0 ∧ win3_2.index t (1 : Fin 2) = t.val / 8
    ∧ win3_3.index t (0 : Fin 2) = 0 ∧ win3_3.index t (1 : Fin 2) = t.val / 8 :=
  (by decide +kernel : ∀ t : Fin grid3.N, _)

-- n % 8 = 7 gives n = 8·J + 7 with J = n / 8, and column e of column tile J is column 1024·J + e.
private theorem flushed3_core (c : Dev nD) (o : Vec Ideal S1x1024 .f32 × Vec Ideal S1x1024 .f32 → Vec Ideal S1x1024 .f32)
    (G : Fin 8192 → EReal)
    (h : ∀ (J : Fin 8) (e : Fin 1024) (hlt : 8 * J.val + 7 < cfg3.N),
      (o (outsAt3 V c (8 * J.val + 7) hlt) : S1x1024.Idx → EReal) (ix2 0 e) = G (Cert.Online.tileIdx J e))
    (n : ℕ) (hn : n < cfg3.N) (h7 : n % 8 = 7) (j : S1x1024.Idx) (i : S1x8192.Idx)
    (hi : (i 1).val = n / 8 * 1024 + 1 * (j 1).val) :
    (o (outsAt3 V c n hn) : S1x1024.Idx → EReal) j = rowOf G i := by
  obtain ⟨J, rfl⟩ : ∃ J : Fin 8, n = 8 * J.val + 7 :=
    ⟨⟨n / 8, by have e : cfg3.N = 64 := N_3; omega⟩, by show n = 8 * (n / 8) + 7; omega⟩
  obtain ⟨u, e, rfl⟩ : ∃ (u : Fin 1) (e : Fin 1024), j = ix2 u e := ⟨_, _, eq_ix2 j⟩
  obtain rfl : u = 0 := Subsingleton.elim _ _
  refine (h J e hn).trans (congrArg G (Fin.ext ?_))
  have hi' : (i 1).val = (8 * J.val + 7) / 8 * 1024 + 1 * e.val := hi
  show 1024 * J.val + e.val = (i 1).val
  omega

-- The point 8·J + 7 for the column tile J = i₁ / 1024 that holds column i₁.
private def lastPt (i : S1x8192.Idx) : Fin cfg3.N :=
  ⟨8 * ((i 1).val / 1024) + 7, by have : (i 1).val < 8192 := (i 1).isLt; have e : cfg3.N = 64 := N_3; omega⟩

private theorem lastPt_mod (i : S1x8192.Idx) : (lastPt i).val % 8 = 7 := by
  show (8 * ((i 1).val / 1024) + 7) % 8 = 7; omega

private theorem lastPt_div (i : S1x8192.Idx) : (lastPt i).val / 8 = (i 1).val / 1024 := by
  show (8 * ((i 1).val / 1024) + 7) / 8 = _; omega

-- i₀ < 1, and 1024·(i₁ / 1024) ≤ i₁ < 1024·(i₁ / 1024) + 1024.
private theorem mem_blk3 (i : S1x8192.Idx) (idx : Fin 2 → ℕ) (h0 : idx 0 = 0) (h1 : idx 1 = (i 1).val / 1024) (a : Fin 2) :
    idx a * S1x1024.size a ≤ (i a).val ∧ (i a).val < idx a * S1x1024.size a + S1x1024.size a := by
  match a with
  | ⟨0, _⟩ =>
    have : (i 0).val < 1 := (i 0).isLt
    show idx 0 * 1 ≤ (i 0).val ∧ (i 0).val < idx 0 * 1 + 1
    rw [h0]; omega
  | ⟨1, _⟩ =>
    show idx 1 * 1024 ≤ (i 1).val ∧ (i 1).val < idx 1 * 1024 + 1024
    rw [h1]; omega

-- The 8 column tiles cover the 8192 columns, and the pair kept for tile J is the one after point 8·J + 7.
theorem arr3_of_last (c : Dev nD) (G2 G3 : Fin 8192 → EReal)
    (h : ∀ (J : Fin 8) (e : Fin 1024) (hlt : 8 * J.val + 7 < cfg3.N),
      pairAt3 (outsAt3 V c (8 * J.val + 7) hlt) e = (G2 (Cert.Online.tileIdx J e), G3 (Cert.Online.tileIdx J e)))
    (col : Fin 8192) :
    ((dat3 V c).arrAt 2 cfg3.N : S1x8192.Idx → EReal) (ix2 0 col) = G2 col
    ∧ ((dat3 V c).arrAt 3 cfg3.N : S1x8192.Idx → EReal) (ix2 0 col) = G3 col := by
  refine ⟨congrFun ((dat3 V c).arrAt_eq_of_cover 2 (rowOf G2) (fun t hf => funext fun j => ?_)
      fun i => ⟨lastPt i, (flush3_2 _).mpr (lastPt_mod i), ?_⟩) (ix2 0 col),
    congrFun ((dat3 V c).arrAt_eq_of_cover 3 (rowOf G3) (fun t hf => funext fun j => ?_)
      fun i => ⟨lastPt i, (flush3_3 _).mpr (lastPt_mod i), ?_⟩) (ix2 0 col)⟩
  · rw [View.read_apply]
    exact flushed3_core V c Prod.fst G2 (fun J e hlt => congrArg Prod.fst (h J e hlt)) t.val t.isLt ((flush3_2 t).mp hf) j _ (by
      show win3_2.index t (1 : Fin 2) * 1024 + 1 * (j 1).val = _
      rw [(idx_facts3 t).2.1])
  · show i ∈ ((View.whole main_v6_0).slice (win3_2.rect (lastPt i))).set
    rw [View.set_slice_whole, Rect.mem_set_unit]
    exact mem_blk3 i (win3_2.index (lastPt i)) (idx_facts3 _).1 ((idx_facts3 _).2.1.trans (lastPt_div i))
  · rw [View.read_apply]
    exact flushed3_core V c Prod.snd G3 (fun J e hlt => congrArg Prod.snd (h J e hlt)) t.val t.isLt ((flush3_3 t).mp hf) j _ (by
      show win3_3.index t (1 : Fin 2) * 1024 + 1 * (j 1).val = _
      rw [(idx_facts3 t).2.2.2])
  · show i ∈ ((View.whole main_v6_1).slice (win3_3.rect (lastPt i))).set
    rw [View.set_slice_whole, Rect.mem_set_unit]
    exact mem_blk3 i (win3_3.index (lastPt i)) (idx_facts3 _).2.2.1 ((idx_facts3 _).2.2.2.trans (lastPt_div i))

end Cert.KernelIdeal.Hand

end
-- ==== Proof.KI.ValStats.lean ====
import proofs.«404408_j69475390980772_3_alg».proof.Proof.KI.Spec3
import proofs.«404408_j69475390980772_3_alg».proof.Proof.Spec
import proofs.«404408_j69475390980772_3_alg».proof.Proof.Online
import proofs.«404408_j69475390980772_3_alg».proof.Proof.Algebra
import proofs.«404408_j69475390980772_3_alg».proof.Proof.KI.ValStatsMask
import proofs.«404408_j69475390980772_3_alg».proof.Proof.KI.ValStatsBlocks
import proofs.«404408_j69475390980772_3_alg».proof.Proof.KI.ValStatsCover
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

private theorem ofBits_neg_inf_f32 : Ideal.ofBits .f32 0xFF800000#32 = (⊥ : EReal) := by
  simp [Ideal.ofBits, Ideal.ieee]

private theorem ofBits_1024_f32 : Ideal.ofBits .f32 0x44800000#32 = (1024 : EReal) := by
  rw [show (1024 : EReal) = ((1024 : ℝ) : EReal) by norm_cast]
  simp [Ideal.ofBits, Ideal.ieee, -EReal.coe_mul]; norm_num

private theorem fold_max_eq_sup {ι : Type} [Fintype ι] (b : EReal) (hb : b = ⊥) (f : ι → EReal) :
    (Finset.univ : Finset ι).fold max b f = Finset.univ.sup f := by
  subst hb
  exact eq_of_forall_ge_iff fun c => by rw [Finset.fold_max_le, Finset.sup_le_iff]; simp

private theorem lift_col (h : S1024x1024.Reduces [0] S1024) (e k : Fin 1024) : h.lift (ix1 e) k = ix2 k e := by
  funext c; apply Fin.ext
  match c with
  | ⟨0, _⟩ => rfl
  | ⟨1, _⟩ => rfl

-- A matrix product against a transpose: entry (r, e) is the dot product of row r of q and row e of k.
private theorem pay5_at (q k : Vec Ideal S1024x512 .bf16) (r e : Fin 1024) :
    k3_pay5 q k (ix2 r e) = ∑ d : Fin 512, (q (ix2 r d) : EReal) * (k (ix2 e d) : EReal) := by
  unfold k3_pay5
  refine (Ideal.matmul_constant_zero_apply _ none _ _ (ix2 r e)).trans ?_
  rw [← Equiv.sum_comp (contrEquiv1 dot_S1024x512_S512x1024_S1024x1024_1_0_0_1_n_n 512 rfl rfl).symm]
  refine Finset.sum_congr rfl fun d _ => ?_
  have hk := contrEquiv1_symm_val dot_S1024x512_S512x1024_S1024x1024_1_0_0_1_n_n 512 rfl rfl d
  generalize (contrEquiv1 dot_S1024x512_S512x1024_S1024x1024_1_0_0_1_n_n 512 rfl rfl).symm d = k' at hk ⊢
  rw [shapeCast_self, shapeCast_self, (Shape.idx_ext₂ rfl hk : dot_S1024x512_S512x1024_S1024x1024_1_0_0_1_n_n.lhsIdx (ix2 r e) k' = ix2 r d),
    (Shape.idx_ext₂ hk rfl : dot_S1024x512_S512x1024_S1024x1024_1_0_0_1_n_n.rhsIdx (ix2 r e) k' = ix2 d e), transpose_ix2_apply]

private theorem pairAt3_restart (e : Fin 1024) :
    pairAt3 ((k3_pay1 (F := Ideal)), (k3_pay2 (F := Ideal))) e = ((⊥ : EReal), (0 : EReal)) :=
  Prod.ext ofBits_neg_inf_f32 Ideal.ofBits_zero_f32

-- For 1024 zeros the supremum is 0 and the 1024 equal exponentials add up to 1024 times one of them.
private theorem above_step (m l : Vec Ideal S1x1024 .f32) (e : Fin 1024) (a : Fin 1024 → EReal) (ha : ∀ r, a r = 0) :
    pairAt3 (k3_pay3 m, k3_pay4 m m l) e = Cert.Online.step a (pairAt3 (m, l) e) := by
  obtain rfl : a = fun _ => 0 := funext ha
  unfold Cert.Online.step k3_pay4 k3_pay3
  simp only [Cert.Online.sup_const_1024, Cert.Online.sum_const_1024, shapeCast_self, Scalar.ofBits, Ideal.ofBits_zero_f32,
    ofBits_1024_f32]
  rfl

-- Read at column e, the maximum and the sum down the rows of s are the supremum and the sum over column e of s.
private theorem tile_step (s : FVec Ideal S1024x1024 .f32) (m l : FVec Ideal S1x1024 .f32) (hφ : FKind.Formats .f32)
    (hmx : (0xFF800000#32 : BitVec FTy.f32.bits) = FKind.maximumf.neutral .f32 hφ)
    (had : (0x00000000#32 : BitVec FTy.f32.bits) = FKind.add.neutral .f32 hφ)
    (h1 : S1x1024.ShapeCasts S1x1024) (h2 : S1024.ShapeCasts S1x1024) (hb : S1x1024.Broadcasts S1024x1024)
    (m' : FVec Ideal S1x1024 .f32)
    (hm' : m' = maximumf (shapeCast S1x1024 m h1) (shapeCast S1x1024
      (multiReduction (F := Ideal) .maximumf [0] S1024 s 0xFF800000#32 reduces_S1024x1024_S1024 hφ hmx) h2))
    (e : Fin 1024) (a : Fin 1024 → EReal) (ha : ∀ r, a r = s (ix2 r e)) :
    pairAt3 (m', addf (mulf (shapeCast S1x1024 l h1) (exp (subf (shapeCast S1x1024 m h1) m')))
        (shapeCast S1x1024 (multiReduction (F := Ideal) .add [0] S1024 (exp (subf s (broadcastTo S1024x1024 m' hb)))
          0x00000000#32 reduces_S1024x1024_S1024 hφ had) h2)) e
      = Cert.Online.step a (pairAt3 (m, l) e) := by
  obtain rfl : a = fun r => s (ix2 r e) := funext ha
  have hm : m' (ix2 0 e) = max (m (ix2 0 e)) (Finset.univ.sup fun r : Fin 1024 => s (ix2 r e)) := by
    rw [hm', maximumf_apply, shapeCast_self, shapeCast_a_1a_apply]
    refine congrArg (max _) ((Ideal.multiReduction_maximumf_single s _ _ hφ hmx (ix1 e)).trans ?_)
    refine (fold_max_eq_sup _ ofBits_neg_inf_f32 _).trans ?_
    exact congrArg (Finset.univ : Finset (Fin 1024)).sup (funext fun r => congrArg s (lift_col _ e r))
  refine Prod.ext hm (Eq.trans (?_ : _ = l (ix2 0 e) * Ideal.exp (m (ix2 0 e) - m' (ix2 0 e))
    + ∑ r : Fin 1024, Ideal.exp (s (ix2 r e) - m' (ix2 0 e))) (by rw [hm]; rfl))
  show addf _ _ (ix2 0 e) = _
  rw [addf_apply, mulf_apply, shapeCast_self, shapeCast_self, shapeCast_a_1a_apply]
  refine congrArg (_ + ·) ((Ideal.multiReduction_add_single _ _ _ hφ had (ix1 e)).trans
    (Finset.sum_congr rfl fun (r : Fin 1024) _ => ?_))
  rw [lift_col]
  show Ideal.exp (s (ix2 r e) - broadcastTo S1024x1024 m' hb (ix2 r e)) = _
  rw [broadcastTo_1b_ab_apply]

variable (V : (c : Dev nD) → (b : Ref sig .tc) → Buf (Elt Ideal) ((c : Thread nD τ).loc b))

def qMat3 (c : Dev nD) : Cert.Spec.Mat 8192 512 := fun r e => (V c main_v1 : S8192x512.Idx → EReal) (ix2 r e)
def kMat3 (c : Dev nD) : Cert.Spec.Mat 8192 512 := fun r e => (V c main_v3 : S8192x512.Idx → EReal) (ix2 r e)

private def colTiles (c : Dev nD) (J : Fin 8) (e : Fin 1024) : Fin 8 → Fin 1024 → EReal :=
  fun i r => Cert.Spec.masked (qMat3 V c) (kMat3 V c) (Cert.Online.tileIdx i r) (Cert.Online.tileIdx J e)

private theorem score_tile (c : Dev nD) (t : Fin cfg3.N) (J I : Fin 8) (hJ : t.val / 8 = J.val) (hI : t.val % 8 = I.val)
    (r e : Fin 1024) :
    k3_pay5 (iblk3 V c 0 t) (iblk3 V c 1 t) (ix2 r e)
      = Cert.Spec.score (qMat3 V c) (kMat3 V c) (Cert.Online.tileIdx I r) (Cert.Online.tileIdx J e) := by
  refine (pay5_at (iblk3 V c 0 t) (iblk3 V c 1 t) r e).trans ?_
  unfold Cert.Spec.score qMat3 kMat3
  exact Finset.sum_congr rfl fun d _ => congrArg₂ (· * ·) (blk3_at V c t J I hJ hI r e d).1 (blk3_at V c t J I hJ hI r e d).2

private theorem diag_tile (c : Dev nD) (t : Fin cfg3.N) (J I : Fin 8) (hJ : t.val / 8 = J.val) (hI : t.val % 8 = I.val)
    (r e : Fin 1024) :
    k3_pay8 (BitVec.ofNat 32 ((grid3.coords t) 0).val) (BitVec.ofNat 32 ((grid3.coords t) 1).val)
        (iblk3 V c 0 t) (iblk3 V c 1 t) (ix2 r e)
      = colTiles V c J e I r := by
  obtain ⟨c0, c1⟩ := coords3 t
  rw [c0, c1, hJ, hI, pay8_at J I, score_tile V c t J I hJ hI r e]
  rfl

-- Zeros above the diagonal, plain scores below it, masked scores on it: each kind of tile acts on a column as one online step, and step (a k) (run a k) = run a (k + 1).
private theorem outsAt3_step (c : Dev nD) (J : Fin 8) (e : Fin 1024) (n : ℕ) (hn : n < cfg3.N) (k : ℕ) (hk : k < 8)
    (hJ : n / 8 = J.val) (hI : n % 8 = k) (prev : Vec Ideal S1x1024 .f32 × Vec Ideal S1x1024 .f32)
    (hprev : ∀ k', k = k' + 1 → pairAt3 prev e = Cert.Online.run (colTiles V c J e) k (by omega)) :
    pairAt3 (step3 V c ⟨n, hn⟩ prev) e = Cert.Online.run (colTiles V c J e) (k + 1) hk := by
  have hp : pairAt3 (if n % 8 = 0 then ((k3_pay1 (F := Ideal)), (k3_pay2 (F := Ideal))) else prev) e
      = Cert.Online.run (colTiles V c J e) k (by omega) := by
    cases k with
    | zero => rw [if_pos hI, pairAt3_restart]; rfl
    | succ k' => rw [if_neg (by omega), hprev k' rfl]
  unfold step3
  dsimp only
  generalize (if n % 8 = 0 then ((k3_pay1 (F := Ideal)), (k3_pay2 (F := Ideal))) else prev) = p at hp ⊢
  obtain ⟨m, l⟩ := p
  show _ = Cert.Online.step (colTiles V c J e ⟨k, hk⟩) _
  rw [← hp]
  by_cases h1 : n % 8 < n / 8
  · rw [if_pos h1]
    exact above_step m l e _ fun r => if_neg (by show ¬1024 * J.val + e.val ≤ 1024 * k + r.val; omega)
  · rw [if_neg h1]
    by_cases h2 : n / 8 < n % 8
    · rw [if_pos h2]
      exact tile_step (k3_pay5 (iblk3 V c 0 ⟨n, hn⟩) (iblk3 V c 1 ⟨n, hn⟩)) m l _ _ _ _ _ _ _ rfl e _ fun r =>
        (if_pos (by show 1024 * J.val + e.val ≤ 1024 * k + r.val; omega)).trans
          (score_tile V c ⟨n, hn⟩ J ⟨k, hk⟩ hJ hI r e).symm
    · rw [if_neg h2]
      exact tile_step (k3_pay8 _ _ (iblk3 V c 0 ⟨n, hn⟩) (iblk3 V c 1 ⟨n, hn⟩)) m l _ _ _ _ _ _ _ rfl e _ fun r =>
        (diag_tile V c ⟨n, hn⟩ J ⟨k, hk⟩ hJ hI r e).symm

-- Induction on n: point n continues point n − 1 unless n % 8 = 0, where the pair restarts.
private theorem outsAt3_run (c : Dev nD) (J : Fin 8) (e : Fin 1024) :
    ∀ (n : ℕ) (hn : n < cfg3.N) (k : ℕ) (hk : k < 8), n / 8 = J.val → n % 8 = k →
      pairAt3 (outsAt3 V c n hn) e = Cert.Online.run (colTiles V c J e) (k + 1) hk
  | 0, hn, k, hk, hJ, hI => outsAt3_step V c J e 0 hn k hk hJ hI _ fun k' h => absurd (hI.trans h) (by omega)
  | n + 1, hn, k, hk, hJ, hI => outsAt3_step V c J e (n + 1) hn k hk hJ hI _ fun k' h => by
    subst h
    exact outsAt3_run c J e n (Nat.lt_of_succ_lt hn) k' (by omega) (by omega) (by omega)

private theorem masked_real (q k : Cert.Spec.Mat 8192 512) (hq : ∀ r e, ∃ y : ℝ, q r e = (y : EReal))
    (hk : ∀ r e, ∃ y : ℝ, k r e = (y : EReal)) (r c : Fin 8192) :
    ∃ y : ℝ, Cert.Spec.masked q k r c = (y : EReal) := by
  choose Q hQ using hq
  choose K hK using hk
  obtain rfl : q = fun r d => (Q r d : EReal) := funext fun r => funext fun d => hQ r d
  obtain rfl : k = fun r d => (K r d : EReal) := funext fun r => funext fun d => hK r d
  unfold Cert.Spec.masked
  split
  · exact ⟨_, Cert.Algebra.score_coe Q K r c⟩
  · exact ⟨0, by simp⟩

-- After all 8 tiles the online run over real entries is the column's maximum and its exponential sum.
private theorem last_point (c : Dev nD) (hq : ∀ r e, ∃ y : ℝ, qMat3 V c r e = (y : EReal))
    (hk : ∀ r e, ∃ y : ℝ, kMat3 V c r e = (y : EReal)) (J : Fin 8) (e : Fin 1024) (h : 8 * J.val + 7 < cfg3.N) :
    pairAt3 (outsAt3 V c (8 * J.val + 7) h) e
      = (Cert.Spec.colMax (Cert.Spec.masked (qMat3 V c) (kMat3 V c)) (Cert.Online.tileIdx J e),
        Cert.Spec.colSum (Cert.Spec.masked (qMat3 V c) (kMat3 V c)) (Cert.Online.tileIdx J e)) := by
  have hcol := Cert.Online.run_column
    (fun r => Cert.Spec.masked (qMat3 V c) (kMat3 V c) r (Cert.Online.tileIdx J e))
    (fun r => masked_real _ _ hq hk r _)
  exact (outsAt3_run V c J e (8 * J.val + 7) h 7 (by omega) (by omega) (by omega)).trans (Prod.ext hcol.1 hcol.2)

theorem arr3_max (c : Dev nD) (hq : ∀ r e, ∃ y : ℝ, qMat3 V c r e = (y : EReal)) (hk : ∀ r e, ∃ y : ℝ, kMat3 V c r e = (y : EReal))
    (col : Fin 8192) :
    ((dat3 V c).arrAt 2 cfg3.N : S1x8192.Idx → EReal) (ix2 0 col)
      = Cert.Spec.colMax (Cert.Spec.masked (qMat3 V c) (kMat3 V c)) col :=
  (arr3_of_last V c _ _ (last_point V c hq hk) col).1

theorem arr3_sum (c : Dev nD) (hq : ∀ r e, ∃ y : ℝ, qMat3 V c r e = (y : EReal)) (hk : ∀ r e, ∃ y : ℝ, kMat3 V c r e = (y : EReal))
    (col : Fin 8192) :
    ((dat3 V c).arrAt 3 cfg3.N : S1x8192.Idx → EReal) (ix2 0 col)
      = Cert.Spec.colSum (Cert.Spec.masked (qMat3 V c) (kMat3 V c)) col :=
  (arr3_of_last V c _ _ (last_point V c hq hk) col).2

end Cert.KernelIdeal.Hand

end
-- ==== Proof.KI.ValOutMask.lean ====
import proofs.«404408_j69475390980772_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.TcCoe Idealize.SL.Sem ValueIdx

def diagRow4 (i : grid4.Coords) : IVec S1024x1024 32 :=
  broadcastTo S1024x1024 (addi (broadcast S1024x1 (Scalar.muli (BitVec.ofNat 32 (i 0).val) 1024#32)) (iota .tc S1024x1 32 [0] iota_S1024x1_d0_w32)) broadcasts_S1024x1_S1024x1024

def diagCol4 (i : grid4.Coords) : IVec S1024x1024 32 :=
  broadcastTo S1024x1024 (addi (broadcast S1x1024 (Scalar.muli (BitVec.ofNat 32 (i 1).val) 1024#32)) (iota .tc S1x1024 32 [1] iota_S1x1024_d1_w32)) broadcasts_S1x1024_S1024x1024

def diagMask4 (i : grid4.Coords) : IVec S1024x1024 1 := cmpi .sge (diagRow4 i) (diagCol4 i)

theorem broadcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

theorem diagRow4_apply (i : grid4.Coords) (p c' : Fin 1024) :
    diagRow4 i (ix2 p c') = BitVec.ofNat 32 (i 0).val * 1024#32 + BitVec.ofNat 32 p.val := by
  refine (broadcastCol_apply _ _ p c').trans ?_
  show IntOp.addi _ (iota .tc S1024x1 32 [0] iota_S1024x1_d0_w32 (ix2 p (0 : Fin 1))) = _
  rw [iota_single_apply]
  rfl

theorem diagCol4_apply (i : grid4.Coords) (p c' : Fin 1024) :
    diagCol4 i (ix2 p c') = BitVec.ofNat 32 (i 1).val * 1024#32 + BitVec.ofNat 32 c'.val := by
  refine (broadcastTo_1b_ab_apply _ _ p c').trans ?_
  show IntOp.addi _ (iota .tc S1x1024 32 [1] iota_S1x1024_d1_w32 (ix2 (0 : Fin 1) c')) = _
  rw [iota_single_apply]
  rfl

-- For a < 8 and b < 1024 the 32-bit word 1024·a + b does not wrap.
theorem tileWord_toNat (a b : ℕ) (ha : a < 8) (hb : b < 1024) :
    (BitVec.ofNat 32 a * 1024#32 + BitVec.ofNat 32 b).toNat = 1024 * a + b := by
  simp only [BitVec.toNat_add, BitVec.toNat_mul, BitVec.toNat_ofNat]
  omega

-- Both global indices are below 2^13, so the signed comparison of the words is that of the numbers.
theorem diagMask4_apply (i : grid4.Coords) (p c' : Fin 1024) :
    diagMask4 i (ix2 p c') = 1#1 ↔ 1024 * (i 1).val + c'.val ≤ 1024 * (i 0).val + p.val := by
  have h0 : (i 0).val < 8 := (i 0).isLt
  have h1 : (i 1).val < 8 := (i 1).isLt
  have hp := p.isLt
  have hc := c'.isLt
  have hr := tileWord_toNat _ _ h0 hp
  have hcl := tileWord_toNat _ _ h1 hc
  show IntOp.cmpi .sge (diagRow4 i _) (diagCol4 i _) = 1#1 ↔ _
  rw [diagRow4_apply, diagCol4_apply, StableHlo.Predicate.sge_iff_toNat (by rw [hr]; omega) (by rw [hcl]; omega), hr, hcl]

end Cert.KernelIdeal.Hand

end
-- ==== Proof.KI.ValOutA.lean ====
import proofs.«404408_j69475390980772_3_alg».proof.Proof.Gen.KernelIdeal.Skeleton
import proofs.«404408_j69475390980772_3_alg».proof.Proof.KI.ValOutMask
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.StackMember
import Idealize.ShloMosaic.Lib.KernelVsHost

noncomputable section

namespace Cert.KernelIdeal.Hand

open Cert.KernelIdeal Cert.KernelIdeal.Gen
open Idealize.ShloMosaic Idealize.ShloMosaic.TcCoe Idealize.SL.Sem ValueIdx

-- A block product into the zero block is the plain matrix product: at (a, b) the sum over the contracted axis.
theorem mm4_apply {m k n : ℕ} (d : DotDims ⟨2, ![m, k]⟩ ⟨2, ![k, n]⟩ ⟨2, ![m, n]⟩) (hd : d = DotDims.plain m k n)
    (lhs : FVec Ideal ⟨2, ![m, k]⟩ .bf16) (rhs : FVec Ideal ⟨2, ![k, n]⟩ .bf16) (a : Fin m) (b : Fin n) :
    matmul d none lhs rhs (constant (F := Ideal) ⟨2, ![m, n]⟩ .f32 0x00000000#32) (ix2 a b)
      = ∑ c : Fin k, lhs (ix2 a c) * rhs (ix2 c b) := by
  subst hd
  rw [matmul_zero_eq_dotGeneral]
  exact StackMember.dotGeneral_plain_apply none lhs rhs a b

theorem score4_apply (q k : FVec Ideal S1024x512 .bf16) (p c' : Fin 1024) :
    matmul dot_S1024x512_S512x1024_S1024x1024_1_0_0_1_n_n none q (transpose S512x1024 [1, 0] k transposes_S1024x512_p1_0_S512x1024)
      (constant (F := Ideal) S1024x1024 .f32 0x00000000#32) (ix2 p c') = ∑ d : Fin 512, q (ix2 p d) * k (ix2 c' d) := by
  rw [mm4_apply dot_S1024x512_S512x1024_S1024x1024_1_0_0_1_n_n rfl]
  exact Finset.sum_congr rfl fun x _ => congrArg (q (ix2 p x) * ·) (transpose_ix2_apply (a := 1024) (b := 512) k _ x c')

-- Weights exp(s - m) of a 1024 × 1024 tile times the value block, added to the carried block.
theorem wsum4_apply (s : FVec Ideal S1024x1024 .f32) (m : FVec Ideal S1x1024 .f32) (o : FVec Ideal S1024x512 .f32)
    (vs : FVec Ideal S1024x512 .bf16) (p : Fin 1024) (e : Fin 512) :
    addf o (matmul dot_S1024x1024_S1024x512_S1024x512_1_0_0_1_n_n none
        (truncf .bf16 (exp (subf s (broadcastTo S1024x1024 m broadcasts_S1x1024_S1024x1024))) bitsLt_bf16_f32) vs
        (constant (F := Ideal) S1024x512 .f32 0x00000000#32)) (ix2 p e)
      = o (ix2 p e) + ∑ c' : Fin 1024, Ideal.exp (s (ix2 p c') - m (ix2 0 c')) * vs (ix2 c' e) := by
  rw [addf_apply, mm4_apply dot_S1024x1024_S1024x512_S1024x512_1_0_0_1_n_n rfl]
  refine congrArg (o (ix2 p e) + ·) (Finset.sum_congr rfl fun c' _ => ?_)
  show Ideal.exp (s (ix2 p c') - broadcastTo S1024x1024 m broadcasts_S1x1024_S1024x1024 (ix2 p c')) * vs (ix2 c' e) = _
  rw [broadcastTo_1b_ab_apply]

theorem pay1_apply (p : Fin 1024) (e : Fin 512) : (k4_pay1 (F := Ideal)) (ix2 p e) = 0 :=
  Ideal.ofBits_zero_f32

-- Above the diagonal every column index exceeds every row index, below it none does; on it the kernel compares the two.
theorem payK_apply (i : grid4.Coords) (q k : Vec Ideal S1024x512 .bf16) (m : Vec Ideal S1x1024 .f32)
    (o : Vec Ideal S1024x512 .f32) (vs : Vec Ideal S1024x512 .bf16) (p : Fin 1024) (e : Fin 512) :
    (if (i 0).val < (i 1).val then k4_pay2 m vs o else if (i 1).val < (i 0).val then k4_pay3 q k m o vs
      else k4_pay4 i q k m o vs) (ix2 p e)
      = o (ix2 p e) + ∑ c' : Fin 1024,
          Ideal.exp ((if 1024 * (i 1).val + c'.val ≤ 1024 * (i 0).val + p.val
              then ∑ d : Fin 512, q (ix2 p d) * k (ix2 c' d) else 0) - m (ix2 0 c')) * vs (ix2 c' e) := by
  have hp := p.isLt
  by_cases h2 : (i 0).val < (i 1).val
  · rw [if_pos h2]
    unfold k4_pay2
    simp only [shapeCast_self]
    rw [addf_apply, broadcastTo_1b_ab_apply, mm4_apply dot_S1x1024_S1024x512_S1x512_1_0_0_1_n_n rfl]
    refine congrArg (o (ix2 p e) + ·) (Finset.sum_congr rfl fun c' _ => ?_)
    rw [if_neg (by omega), ← Ideal.ofBits_zero_f32]
    rfl
  · rw [if_neg h2]
    by_cases h3 : (i 1).val < (i 0).val
    · rw [if_pos h3]
      unfold k4_pay3
      simp only [shapeCast_self]
      rw [wsum4_apply]
      exact congrArg (o (ix2 p e) + ·) (Finset.sum_congr rfl fun c' _ => by
        rw [score4_apply, if_pos (by have := c'.isLt; omega)])
    · rw [if_neg h3]
      unfold k4_pay4
      simp only [shapeCast_self]
      rw [wsum4_apply]
      refine congrArg (o (ix2 p e) + ·) (Finset.sum_congr rfl fun c' _ => ?_)
      show Ideal.exp (Scalar.select (diagMask4 i (ix2 p c')) _ (Ideal.ofBits .f32 0x00000000#32) - _) * _ = _
      rw [Ideal.ofBits_zero_f32]
      by_cases hm : 1024 * (i 1).val + c'.val ≤ 1024 * (i 0).val + p.val
      · rw [if_pos hm, (diagMask4_apply i p c').mpr hm, select_one, score4_apply]
      · rw [if_neg hm, eq_zero_of_ne_one (fun h => hm ((diagMask4_apply i p c').mp h)), select_zero]

end Cert.KernelIdeal.Hand

end
-- ==== Proof.KI.ValOutCover.lean ====
import proofs.«404408_j69475390980772_3_alg».proof.Proof.Gen.KernelIdeal.Points
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem ValueIdx

theorem idx_facts4 : ∀ t : Fin cfg4.N,
    win4_0.index t (0 : Fin 2) = t.val / 8 ∧ win4_0.index t (1 : Fin 2) = 0
    ∧ win4_1.index t (0 : Fin 2) = t.val % 8 ∧ win4_1.index t (1 : Fin 2) = 0
    ∧ win4_2.index t (0 : Fin 2) = t.val % 8 ∧ win4_2.index t (1 : Fin 2) = 0
    ∧ win4_3.index t (0 : Fin 2) = 0 ∧ win4_3.index t (1 : Fin 2) = t.val % 8
    ∧ win4_4.index t (0 : Fin 2) = t.val / 8 ∧ win4_4.index t (1 : Fin 2) = 0
    ∧ (grid4.coords t 0).val = t.val / 8 ∧ (grid4.coords t 1).val = t.val % 8 :=
  (by decide +kernel : ∀ t : Fin grid4.N, _)

-- The witness for row r is the point of row tile r / 1024 and column tile 7.
theorem cover4 (i : S8192x512.Idx) : ∃ t : Fin cfg4.N, (cfg4.win 4).flush t = true ∧ i ∈ ((cfg4.win 4).blk t).view.set := by
  have h0 := idx2_lt0 i
  have h1 := idx2_lt1 i
  obtain ⟨t, ht⟩ : ∃ t : Fin cfg4.N, t.val = 8 * ((i 0).val / 1024) + 7 :=
    ⟨⟨_, lt_of_lt_of_eq (by omega) (by decide : 64 = grid4.N)⟩, rfl⟩
  obtain ⟨-, -, -, -, -, -, -, -, e0, e1, -⟩ := idx_facts4 t
  refine ⟨t, (flush4_4 t).mpr (by omega), ?_⟩
  show i ∈ ((View.whole main_v14).slice (win4_4.rect t)).set
  rw [View.set_slice_whole, Rect.mem_set_unit]
  intro a
  match a with
  | ⟨0, _⟩ => show win4_4.index t 0 * 1024 ≤ (i 0).val ∧ (i 0).val < win4_4.index t 0 * 1024 + 1024; omega
  | ⟨1, _⟩ => show win4_4.index t 1 * 512 ≤ (i 1).val ∧ (i 1).val < win4_4.index t 1 * 512 + 512; omega

end Cert.KernelIdeal.Hand

end
-- ==== Proof.KI.ValOut.lean ====
import proofs.«404408_j69475390980772_3_alg».proof.Proof.KI.Spec4
import proofs.«404408_j69475390980772_3_alg».proof.Proof.Spec
import proofs.«404408_j69475390980772_3_alg».proof.Proof.Online
import proofs.«404408_j69475390980772_3_alg».proof.Proof.KI.ValOutA
import proofs.«404408_j69475390980772_3_alg».proof.Proof.KI.ValOutCover
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)
open Cert.Online (tileIdx tileIdx_val firstTiles)

variable (V : (c : Dev nD) → (b : Ref sig .tc) → Buf (Elt Ideal) ((c : Thread nD τ).loc b))

def qMat4 (c : Dev nD) : Cert.Spec.Mat 8192 512 := fun r e => (V c main_v1 : S8192x512.Idx → EReal) (ix2 r e)
def kMat4 (c : Dev nD) : Cert.Spec.Mat 8192 512 := fun r e => (V c main_v3 : S8192x512.Idx → EReal) (ix2 r e)
def vsMat4 (c : Dev nD) : Cert.Spec.Mat 8192 512 := fun r e => (V c main_v13 : S8192x512.Idx → EReal) (ix2 r e)
def mRow4 (c : Dev nD) : Fin 8192 → EReal := fun col => (V c main_v6_0 : S1x8192.Idx → EReal) (ix2 0 col)

theorem N4_eq : cfg4.N = 64 := N_4

def rowTile4 (t : Fin cfg4.N) : Fin 8 := ⟨t.val / 8, by have := t.isLt; have := N4_eq; omega⟩
def colTile4 (t : Fin cfg4.N) : Fin 8 := ⟨t.val % 8, by omega⟩

abbrev qblk4 (c : Dev nD) (t : Fin cfg4.N) : Vec Ideal S1024x512 .bf16 := iblk4 V c 0 t
abbrev kblk4 (c : Dev nD) (t : Fin cfg4.N) : Vec Ideal S1024x512 .bf16 := iblk4 V c 1 t
abbrev vsblk4 (c : Dev nD) (t : Fin cfg4.N) : Vec Ideal S1024x512 .bf16 := iblk4 V c 2 t
abbrev mblk4 (c : Dev nD) (t : Fin cfg4.N) : Vec Ideal S1x1024 .f32 := iblk4 V c 3 t

theorem emb4 (t : Fin cfg4.N) (p : Fin 1024) (d : Fin 512) :
    (((cfg4.win 0).blk t).view.emb (ix2 p d) : S8192x512.Idx) = ix2 (tileIdx (rowTile4 t) p) d
    ∧ (((cfg4.win 1).blk t).view.emb (ix2 p d) : S8192x512.Idx) = ix2 (tileIdx (colTile4 t) p) d
    ∧ (((cfg4.win 2).blk t).view.emb (ix2 p d) : S8192x512.Idx) = ix2 (tileIdx (colTile4 t) p) d
    ∧ (((cfg4.win 3).blk t).view.emb (ix2 0 p) : S1x8192.Idx) = ix2 0 (tileIdx (colTile4 t) p)
    ∧ (((cfg4.win 4).blk t).view.emb (ix2 p d) : S8192x512.Idx) = ix2 (tileIdx (rowTile4 t) p) d := by
  obtain ⟨a0, a1, b0, b1, c0, c1, d0, d1, e0, e1, -⟩ := idx_facts4 t
  refine ⟨?_, ?_, ?_, ?_, ?_⟩ <;> refine (eq_ix2 _).trans (congrArg₂ ix2 (Fin.ext ?_) (Fin.ext ?_))
  · show win4_0.index t 0 * 1024 + 1 * p.val = 1024 * (t.val / 8) + p.val; omega
  · show win4_0.index t 1 * 512 + 1 * d.val = d.val; omega
  · show win4_1.index t 0 * 1024 + 1 * p.val = 1024 * (t.val % 8) + p.val; omega
  · show win4_1.index t 1 * 512 + 1 * d.val = d.val; omega
  · show win4_2.index t 0 * 1024 + 1 * p.val = 1024 * (t.val % 8) + p.val; omega
  · show win4_2.index t 1 * 512 + 1 * d.val = d.val; omega
  · show win4_3.index t 0 * 1 + 1 * 0 = 0; omega
  · show win4_3.index t 1 * 1024 + 1 * p.val = 1024 * (t.val % 8) + p.val; omega
  · show win4_4.index t 0 * 1024 + 1 * p.val = 1024 * (t.val / 8) + p.val; omega
  · show win4_4.index t 1 * 512 + 1 * d.val = d.val; omega

theorem qblk4_apply (c : Dev nD) (t : Fin cfg4.N) (p : Fin 1024) (d : Fin 512) :
    qblk4 V c t (ix2 p d) = qMat4 V c (tileIdx (rowTile4 t) p) d :=
  congrArg (V c main_v1 : S8192x512.Idx → EReal) (emb4 t p d).1

theorem kblk4_apply (c : Dev nD) (t : Fin cfg4.N) (p : Fin 1024) (d : Fin 512) :
    kblk4 V c t (ix2 p d) = kMat4 V c (tileIdx (colTile4 t) p) d :=
  congrArg (V c main_v3 : S8192x512.Idx → EReal) (emb4 t p d).2.1

theorem vsblk4_apply (c : Dev nD) (t : Fin cfg4.N) (p : Fin 1024) (d : Fin 512) :
    vsblk4 V c t (ix2 p d) = vsMat4 V c (tileIdx (colTile4 t) p) d :=
  congrArg (V c main_v13 : S8192x512.Idx → EReal) (emb4 t p d).2.2.1

theorem mblk4_apply (c : Dev nD) (t : Fin cfg4.N) (c' : Fin 1024) :
    mblk4 V c t (ix2 0 c') = mRow4 V c (tileIdx (colTile4 t) c') :=
  congrArg (V c main_v6_0 : S1x8192.Idx → EReal) (emb4 t c' 0).2.2.2.1

def addend4 (c : Dev nD) (I J : Fin 8) (p : Fin 1024) (e : Fin 512) : EReal :=
  ∑ c' : Fin 1024,
    Ideal.exp (Cert.Spec.masked (qMat4 V c) (kMat4 V c) (tileIdx I p) (tileIdx J c') - mRow4 V c (tileIdx J c'))
      * vsMat4 V c (tileIdx J c') e

theorem step4_apply (c : Dev nD) (t : Fin cfg4.N) (prev : Vec Ideal S1024x512 .f32) (p : Fin 1024) (e : Fin 512) :
    step4 V c t prev (ix2 p e)
      = (if t.val % 8 = 0 then 0 else prev (ix2 p e)) + addend4 V c (rowTile4 t) (colTile4 t) p e := by
  obtain ⟨-, -, -, -, -, -, -, -, -, -, g0, g1⟩ := idx_facts4 t
  have key := payK_apply (grid4.coords t) (qblk4 V c t) (kblk4 V c t) (mblk4 V c t)
    (if t.val % 8 = 0 then (k4_pay1 (F := Ideal)) else prev) (vsblk4 V c t) p e
  rw [g0, g1] at key
  refine key.trans ?_
  rw [ite_apply, pay1_apply]
  refine congrArg (_ + ·) (Finset.sum_congr rfl fun c' _ => ?_)
  rw [mblk4_apply, vsblk4_apply]
  simp only [qblk4_apply, kblk4_apply]
  rfl

theorem sum_firstTiles_succ (f : Fin 8 → EReal) (n : ℕ) (h : n < 8) :
    ∑ j ∈ firstTiles (n + 1), f j = ∑ j ∈ firstTiles n, f j + f ⟨n, h⟩ := by
  rw [Cert.Online.firstTiles_succ n h, Finset.sum_insert (Cert.Online.not_mem_firstTiles n h), add_comm]

-- By induction on the point: column tile 0 restarts the carried block, every other column tile adds to it.
theorem outsAt4_apply (c : Dev nD) (p : Fin 1024) (e : Fin 512) (n : ℕ) : ∀ h : n < cfg4.N,
    outsAt4 V c n h (ix2 p e) = ∑ j ∈ firstTiles (n % 8 + 1), addend4 V c (rowTile4 ⟨n, h⟩) j p e := by
  have hN := N4_eq
  induction n with
  | zero =>
    intro h
    rw [sum_firstTiles_succ _ (0 % 8) (by omega)]
    exact (step4_apply V c ⟨0, h⟩ _ p e).trans
      (congrArg (· + _) ((if_pos rfl).trans (by rw [Nat.zero_mod, Cert.Online.firstTiles_zero, Finset.sum_empty])))
  | succ n ih =>
    intro h
    rw [sum_firstTiles_succ _ ((n + 1) % 8) (by omega)]
    refine (step4_apply V c ⟨n + 1, h⟩ _ p e).trans (congrArg (· + _) ?_)
    by_cases h0 : (n + 1) % 8 = 0
    · rw [if_pos h0, h0, Cert.Online.firstTiles_zero, Finset.sum_empty]
    · rw [if_neg h0, ih (Nat.lt_of_succ_lt h), show n % 8 + 1 = (n + 1) % 8 by omega]
      exact Finset.sum_congr rfl fun j _ => congrArg (addend4 V c · j p e) (Fin.ext (by show n / 8 = (n + 1) / 8; omega))

def G4 (c : Dev nD) : S8192x512.Idx → EReal := fun i =>
  Cert.Spec.outK (Cert.Spec.masked (qMat4 V c) (kMat4 V c)) (mRow4 V c) (vsMat4 V c)
    ⟨(i 0).val, (i 0).isLt⟩ ⟨(i 1).val, (i 1).isLt⟩

-- After the last column tile the eight tiles' sums of 1024 regroup to one sum over all 8192 columns.
theorem flushed4_eq (c : Dev nD) (t : Fin cfg4.N) (hf : (cfg4.win 4).flush t = true) :
    (dat4 V c).flushed 4 t = ((cfg4.win 4).blk t).view.read (Elt Ideal) (G4 V c) := by
  have h7 : t.val % 8 = 7 := (flush4_4 t).mp hf
  funext j
  obtain ⟨p, e, rfl⟩ : ∃ (p : Fin 1024) (e : Fin 512), j = ix2 p e := ⟨j 0, j 1, eq_ix2 j⟩
  show outsAt4 V c t.val t.isLt (ix2 p e) = G4 V c (((cfg4.win 4).blk t).view.emb (ix2 p e))
  rw [(emb4 t p e).2.2.2.2, outsAt4_apply, h7]
  unfold G4 Cert.Spec.outK
  rw [Cert.Online.sum_tiles]
  exact Finset.sum_congr Cert.Online.firstTiles_eight fun _ _ => rfl

theorem arr4 (c : Dev nD) (r : Fin 8192) (d : Fin 512) :
    ((dat4 V c).arrAt 4 cfg4.N : S8192x512.Idx → EReal) (ix2 r d)
      = Cert.Spec.outK (Cert.Spec.masked (qMat4 V c) (kMat4 V c)) (mRow4 V c) (vsMat4 V c) r d := by
  rw [(dat4 V c).arrAt_eq_of_cover 4 (G4 V c) (flushed4_eq V c) cover4]
  rfl

end Cert.KernelIdeal.Hand

end
-- ==== Proof.KI.Chain.lean ====
import proofs.«404408_j69475390980772_3_alg».proof.Proof.KI.RunDefs
import proofs.«404408_j69475390980772_3_alg».proof.Proof.KI.ValLin0
import proofs.«404408_j69475390980772_3_alg».proof.Proof.KI.ValLin1
import proofs.«404408_j69475390980772_3_alg».proof.Proof.KI.ValLin2
import proofs.«404408_j69475390980772_3_alg».proof.Proof.KI.ValStats
import proofs.«404408_j69475390980772_3_alg».proof.Proof.KI.ValOut
import proofs.«404408_j69475390980772_3_alg».proof.Proof.Spec
import proofs.«404408_j69475390980772_3_alg».proof.Proof.Algebra
import proofs.«404408_j69475390980772_3_alg».proof.Proof.Gen.KernelIdeal.Regions
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg)

def qIn (c : Dev nD) : Cert.Spec.Mat 8192 1024 := fun r k => (m ((c : Thread nD τ).loc main_arg0) : S8192x1024.Idx → EReal) (ix2 r k)
def kIn (c : Dev nD) : Cert.Spec.Mat 8192 1024 := fun r k => (m ((c : Thread nD τ).loc main_arg1) : S8192x1024.Idx → EReal) (ix2 r k)
def vIn (c : Dev nD) : Cert.Spec.Mat 8192 1024 := fun r k => (m ((c : Thread nD τ).loc main_arg2) : S8192x1024.Idx → EReal) (ix2 r k)
def wqIn (c : Dev nD) : Cert.Spec.Mat 512 1024 := fun e k => (m ((c : Thread nD τ).loc main_arg3) : S512x1024.Idx → EReal) (ix2 e k)
def bqIn (c : Dev nD) : Fin 512 → EReal := fun e => (m ((c : Thread nD τ).loc main_arg4) : S512.Idx → EReal) (ix1 e)
def wkIn (c : Dev nD) : Cert.Spec.Mat 512 1024 := fun e k => (m ((c : Thread nD τ).loc main_arg5) : S512x1024.Idx → EReal) (ix2 e k)
def bkIn (c : Dev nD) : Fin 512 → EReal := fun e => (m ((c : Thread nD τ).loc main_arg6) : S512.Idx → EReal) (ix1 e)
def wvIn (c : Dev nD) : Cert.Spec.Mat 512 1024 := fun e k => (m ((c : Thread nD τ).loc main_arg7) : S512x1024.Idx → EReal) (ix2 e k)
def bvIn (c : Dev nD) : Fin 512 → EReal := fun e => (m ((c : Thread nD τ).loc main_arg8) : S512.Idx → EReal) (ix1 e)

abbrev qP (c : Dev nD) := Cert.Spec.affineScaled (qIn m c) (wqIn m c) (bqIn m c) scale0
abbrev kP (c : Dev nD) := Cert.Spec.affineScaled (kIn m c) (wkIn m c) (bkIn m c) scale1
abbrev vP (c : Dev nD) := Cert.Spec.affineScaled (vIn m c) (wvIn m c) (bvIn m c) scale2

theorem bias_row (x : S512.Idx → EReal) (e : Fin 512) :
    shapeCast S1x512 x shapeCasts_S512_S1x512 (ix2 0 e) = x (ix1 e) := by
  refine shapeCast_apply x _ (ix2 0 e) (ix1 e) ?_
  rw [Shape.rowMajor_val_two, Shape.rowMajor_val_one]
  show e.val = 0 * 512 + e.val
  omega

-- up to region 2's entry each host stretch writes one bias row and each region one projection: never an argument array
theorem W_arg (c : Dev nD) (b : Ref sig .tc) (hb : b ∉ hostOps0_W ∧ b ∉ hostOps1_W ∧ b ∉ hostOps2_W ∧ main_v1 ≠ b ∧ main_v3 ≠ b) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) := by
  obtain ⟨h0, h1, h2, n1, n3⟩ := hb
  have e1 := StableHlo.after_of_writes_sub hostOps0 (W0 m ρ c) hostOps0_writes h0
  have e2 := (W2_keep m ρ c b n1).trans e1
  have e3 := (StableHlo.after_of_writes_sub hostOps1 (W2 m ρ c) hostOps1_writes h1).trans e2
  have e4 := (W4_keep m ρ c b n3).trans e3
  exact ⟨e1, e2, e3, e4, (StableHlo.after_of_writes_sub hostOps2 (W4 m ρ c) hostOps2_writes h2).trans e4⟩

-- a region entered with argument arrays, its bias reshaped to a row, leaves their scaled affine map
theorem W2_v1 (c : Dev nD) (r : Fin 8192) (d : Fin 512) :
    (W2 m ρ c (Proc.devRef .tc main_v1) : S8192x512.Idx → EReal) (ix2 r d) = qP m c r d := by
  refine (congrFun (W2_arr m ρ c 3) (ix2 r d)).trans ?_
  rw [arr0, show xMat0 (V1 m ρ) c = qIn m c from funext₂ fun r k => congrFun (W_arg m ρ c main_arg0 (by decide)).1 (ix2 r k),
    show wMat0 (V1 m ρ) c = wqIn m c from funext₂ fun e k => congrFun (W_arg m ρ c main_arg3 (by decide)).1 (ix2 e k),
    show bRow0 (V1 m ρ) c = bqIn m c from funext fun e => by
      show (StableHlo.after hostOps0 (W0 m ρ c) (Proc.devRef .tc main_v0) : S1x512.Idx → EReal) (ix2 0 e) = _
      after_results
      exact bias_row _ e]

theorem W4_v3 (c : Dev nD) (r : Fin 8192) (d : Fin 512) :
    (W4 m ρ c (Proc.devRef .tc main_v3) : S8192x512.Idx → EReal) (ix2 r d) = kP m c r d := by
  refine (congrFun (W4_arr m ρ c 3) (ix2 r d)).trans ?_
  rw [arr1, show xMat1 (V3 m ρ) c = kIn m c from funext₂ fun r k => congrFun (W_arg m ρ c main_arg1 (by decide)).2.2.1 (ix2 r k),
    show wMat1 (V3 m ρ) c = wkIn m c from funext₂ fun e k => congrFun (W_arg m ρ c main_arg5 (by decide)).2.2.1 (ix2 e k),
    show bRow1 (V3 m ρ) c = bkIn m c from funext fun e => by
      show (StableHlo.after hostOps1 (W2 m ρ c) (Proc.devRef .tc main_v2) : S1x512.Idx → EReal) (ix2 0 e) = _
      after_results
      rw [(W_arg m ρ c main_arg6 (by decide)).2.1]
      exact bias_row _ e]

theorem W6_v5 (c : Dev nD) (r : Fin 8192) (d : Fin 512) :
    (W6 m ρ c (Proc.devRef .tc main_v5) : S8192x512.Idx → EReal) (ix2 r d) = vP m c r d := by
  refine (congrFun (W6_arr m ρ c 3) (ix2 r d)).trans ?_
  rw [arr2, show xMat2 (V5 m ρ) c = vIn m c from funext₂ fun r k => congrFun (W_arg m ρ c main_arg2 (by decide)).2.2.2.2 (ix2 r k),
    show wMat2 (V5 m ρ) c = wvIn m c from funext₂ fun e k => congrFun (W_arg m ρ c main_arg7 (by decide)).2.2.2.2 (ix2 e k),
    show bRow2 (V5 m ρ) c = bvIn m c from funext fun e => by
      show (StableHlo.after hostOps2 (W4 m ρ c) (Proc.devRef .tc main_v4) : S1x512.Idx → EReal) (ix2 0 e) = _
      after_results
      rw [(W_arg m ρ c main_arg8 (by decide)).2.2.2.1]
      exact bias_row _ e]

-- between its region and the statistics region a projection is written by nothing
theorem qMat3_V6 (c : Dev nD) : qMat3 (V6 m ρ) c = qP m c := by
  funext r e
  exact (congrFun ((W6_keep m ρ c main_v1 (by decide)).trans <| (StableHlo.after_of_writes_sub hostOps2 _ hostOps2_writes (by decide)).trans <|
    (W4_keep m ρ c main_v1 (by decide)).trans (StableHlo.after_of_writes_sub hostOps1 _ hostOps1_writes (by decide))) (ix2 r e)).trans (W2_v1 m ρ c r e)
theorem kMat3_V6 (c : Dev nD) : kMat3 (V6 m ρ) c = kP m c := by
  funext r e
  exact (congrFun ((W6_keep m ρ c main_v3 (by decide)).trans (StableHlo.after_of_writes_sub hostOps2 _ hostOps2_writes (by decide))) (ix2 r e)).trans (W4_v3 m ρ c r e)

def vAt7 (c : Dev nD) : Cert.Spec.Mat 8192 512 :=
  fun r e => (W7 m ρ c (Proc.devRef .tc main_v5) : S8192x512.Idx → EReal) (ix2 r e)
def lAt7 (c : Dev nD) : Fin 8192 → EReal :=
  fun col => (W7 m ρ c (Proc.devRef .tc main_v6_1) : S1x8192.Idx → EReal) (ix2 0 col)

theorem vs_apply (v : FVec Ideal S8192x512 .bf16) (l : FVec Ideal S1x8192 .f32) (r : Fin 8192) (e : Fin 512) :
    (truncf .bf16 (mulf (extf .f32 v bitsLt_bf16_f32)
        (broadcastInDim S8192x512 ![0, 1] bcast_S8192x1_S8192x512_0_1
          (shapeCast S8192x1 (Host.divf (broadcastInDim S1x8192 ![] bcast_S_S1x8192 (constant (F := Ideal) S_ .f32 0x3F800000#32)) l)
            shapeCasts_S1x8192_S8192x1))) bitsLt_bf16_f32 : FVec Ideal S8192x512 .bf16) (ix2 r e)
      = (v (ix2 r e) : EReal) * Ideal.div 1 (l (ix2 0 r)) := by
  rw [truncf_apply, mulf_apply, extf_apply,
    broadcastInDim_apply ![0, 1] bcast_S8192x1_S8192x512_0_1 _ (ix2 r e) (ix2 r (0 : Fin 1)) (fun a => by fin_cases a <;> rfl),
    shapeCast_apply _ shapeCasts_S1x8192_S8192x1 (ix2 r (0 : Fin 1)) (ix2 (0 : Fin 1) r)
      (by rw [Shape.rowMajor_val_two, Shape.rowMajor_val_two]; show 0 * 8192 + r.val = r.val * 1 + 0; omega),
    hostDivf_apply, broadcastInDim_scalar_apply, constant_apply, Ideal.ofBits_one_f32]

theorem vsMat4_V8_raw (c : Dev nD) : vsMat4 (V8 m ρ) c = Cert.Spec.scaledV (vAt7 m ρ c) (lAt7 m ρ c) := by
  funext r e
  show (StableHlo.after hostOps4 (W7 m ρ c) (Proc.devRef .tc main_v13) : S8192x512.Idx → EReal) (ix2 r e) = _
  after_results
  exact vs_apply _ _ r e

-- the statistics region only reads the projections, and the last host stretch writes none of the five arrays the output region reads
theorem qMat4_V8 (c : Dev nD) : qMat4 (V8 m ρ) c = qP m c := by
  funext r e
  exact (congrFun ((StableHlo.after_of_writes_sub hostOps4 _ hostOps4_writes (by decide)).trans ((W7_arr m ρ c 0).trans (((dat3 (V6 m ρ) c).arrAt_in 0 rfl _).trans (A_eq3 (V6 m ρ) c 0)))) (ix2 r e)).trans
    (congrFun (congrFun (qMat3_V6 m ρ c) r) e)
theorem kMat4_V8 (c : Dev nD) : kMat4 (V8 m ρ) c = kP m c := by
  funext r e
  exact (congrFun ((StableHlo.after_of_writes_sub hostOps4 _ hostOps4_writes (by decide)).trans ((W7_arr m ρ c 1).trans (((dat3 (V6 m ρ) c).arrAt_in 1 rfl _).trans (A_eq3 (V6 m ρ) c 1)))) (ix2 r e)).trans
    (congrFun (congrFun (kMat3_V6 m ρ c) r) e)
theorem vAt7_eq (c : Dev nD) : vAt7 m ρ c = vP m c := by
  funext r e
  exact (congrFun (W7_of_ne m ρ c main_v5 (by decide)) (ix2 r e)).trans (W6_v5 m ρ c r e)

theorem stats_V8 (c : Dev nD)
    (hQ : ∀ r e, ∃ y : ℝ, qP m c r e = (y : EReal)) (hK : ∀ r e, ∃ y : ℝ, kP m c r e = (y : EReal)) :
    mRow4 (V8 m ρ) c = Cert.Spec.colMax (Cert.Spec.masked (qP m c) (kP m c))
    ∧ lAt7 m ρ c = Cert.Spec.colSum (Cert.Spec.masked (qP m c) (kP m c)) := by
  constructor <;> funext col
  · refine (congrFun ((StableHlo.after_of_writes_sub hostOps4 _ hostOps4_writes (by decide)).trans (W7_arr m ρ c 2)) (ix2 0 col)).trans ?_
    rw [arr3_max (V6 m ρ) c (by rw [qMat3_V6]; exact hQ) (by rw [kMat3_V6]; exact hK) col, qMat3_V6, kMat3_V6]
  · refine (congrFun (W7_arr m ρ c 3) (ix2 0 col)).trans ?_
    rw [arr3_sum (V6 m ρ) c (by rw [qMat3_V6]; exact hQ) (by rw [kMat3_V6]; exact hK) col, qMat3_V6, kMat3_V6]

theorem W9_out (c : Dev nD)
    (hq : ∀ r k, ∃ y : ℝ, qIn m c r k = (y : EReal)) (hk : ∀ r k, ∃ y : ℝ, kIn m c r k = (y : EReal))
    (hv : ∀ r k, ∃ y : ℝ, vIn m c r k = (y : EReal))
    (hwq : ∀ e k, ∃ y : ℝ, wqIn m c e k = (y : EReal)) (hwk : ∀ e k, ∃ y : ℝ, wkIn m c e k = (y : EReal))
    (hwv : ∀ e k, ∃ y : ℝ, wvIn m c e k = (y : EReal))
    (hbq : ∀ e, ∃ y : ℝ, bqIn m c e = (y : EReal)) (hbk : ∀ e, ∃ y : ℝ, bkIn m c e = (y : EReal))
    (hbv : ∀ e, ∃ y : ℝ, bvIn m c e = (y : EReal))
    (s u : ℝ) (hs : scale0 = (s : EReal)) (hu1 : scale1 = (u : EReal)) (hu2 : scale2 = (u : EReal))
    (r : Fin 8192) (d : Fin 512) :
    (W9 m ρ c (Proc.devRef .tc main_v14) : S8192x512.Idx → EReal) (ix2 r d)
      = Cert.Spec.kernelOut (qIn m c) (kIn m c) (vIn m c) (wqIn m c) (wkIn m c) (wvIn m c)
          (bqIn m c) (bkIn m c) (bvIn m c) (s : EReal) (u : EReal) r d := by
  have hQ : ∀ r e, ∃ y : ℝ, qP m c r e = (y : EReal) := by
    unfold qP; rw [hs]; exact Cert.Algebra.affineScaled_real _ _ _ s hq hwq hbq
  have hK : ∀ r e, ∃ y : ℝ, kP m c r e = (y : EReal) := by
    unfold kP; rw [hu1]; exact Cert.Algebra.affineScaled_real _ _ _ u hk hwk hbk
  refine (congrFun (W9_arr m ρ c 4) (ix2 r d)).trans ?_
  rw [arr4, qMat4_V8, kMat4_V8, (stats_V8 m ρ c hQ hK).1, vsMat4_V8_raw, vAt7_eq, (stats_V8 m ρ c hQ hK).2, ← hs, ← hu1]
  rfl

end Cert.KernelIdeal.Hand

end
-- ==== Proof.Ref.lean ====
import proofs.«404408_j69475390980772_3_alg».proof.Proof.Gen.ReferenceIdeal.Read
import proofs.«404408_j69475390980772_3_alg».proof.Proof.Spec
import Idealize.ShloMosaic.Lib.ValueIdx
import Idealize.ShloMosaic.Lib.IdealHost
import Idealize.ShloMosaic.Lib.StableHlo.Predicate
import Idealize.ShloMosaic.PureOps.Ideal.Laws
import Idealize.ShloMosaic.PureOps.Reduce

noncomputable section

namespace Cert.RefLeg

open Cert.ReferenceIdeal Cert.ReferenceIdeal.Gen Cert.ReferenceIdeal.Read Idealize.ShloMosaic ValueIdx

variable (x0 x1 x2 : (⟨S8192x1024, .f32⟩ : BufTy).Contents (Elt Ideal)) (x3 : (⟨S512x1024, .f32⟩ : BufTy).Contents (Elt Ideal)) (x4 : (⟨S512, .f32⟩ : BufTy).Contents (Elt Ideal)) (x5 : (⟨S512x1024, .f32⟩ : BufTy).Contents (Elt Ideal)) (x6 : (⟨S512, .f32⟩ : BufTy).Contents (Elt Ideal)) (x7 : (⟨S512x1024, .f32⟩ : BufTy).Contents (Elt Ideal)) (x8 : (⟨S512, .f32⟩ : BufTy).Contents (Elt Ideal))

abbrev qpS : Cert.Spec.Mat 8192 512 :=
  Cert.Spec.affine (fun r k => x0 (ix2 r k)) (fun e k => x3 (ix2 e k)) (fun e => x4 (ix1 e))

abbrev smS : Cert.Spec.Mat 8192 8192 :=
  Cert.Spec.refMasked (qpS x0 x3 x4) (qpS x1 x5 x6) (Ideal.ofBits .f32 0x41B504F3#32)

/-- The three projections are one function of (input, weight, bias): x·wᵀ + b. -/
theorem qp_at (r : Fin 8192) (d : Fin 512) : val_main_v4 x0 x3 x4 (ix2 r d) = qpS x0 x3 x4 r d := by
  rw [val_main_v4_apply, val_main_v1_apply, val_main_v3_apply, val_main_v2_apply]
  simp only [val_main_v0_apply, show ∀ k, lidx_main_v1 (ix2 r d) k = ix2 r k from fun _ => eq_ix2 _,
    show ∀ k, idx_main_v0 (ridx_main_v1 (ix2 r d) k) = ix2 d k from fun _ => eq_ix2 _,
    show idx_main_v2 (idx_main_v3 (ix2 r d)) = ix1 d from eq_ix1 _]
  rfl

theorem kp_eq : val_main_v9 (F := Ideal) = val_main_v4 := rfl

theorem vp_eq : val_main_v14 (F := Ideal) = val_main_v4 := rfl

theorem score_at (r c : Fin 8192) :
    val_main_v16 x0 x1 x3 x4 x5 x6 (ix2 r c) = Cert.Spec.score (qpS x0 x3 x4) (qpS x1 x5 x6) r c := by
  rw [val_main_v16_apply]
  simp only [val_main_v15_apply, show ∀ k, lidx_main_v16 (ix2 r c) k = ix2 r k from fun _ => eq_ix2 _,
    show ∀ k, idx_main_v15 (ridx_main_v16 (ix2 r c) k) = ix2 c k from fun _ => eq_ix2 _, kp_eq, qp_at]
  rfl

theorem toNat_coord (a : Fin 8192) : (BitVec.ofNat 32 a.val).toNat = a.val := by
  rw [BitVec.toNat_ofNat]; omega

/-- Row and column numbers are below 2^31, so the signed comparison is the comparison of numbers. -/
theorem mask_at (r c : Fin 8192) :
    val_main_v20 (F := Ideal) (ix2 r c) = if c.val ≤ r.val then (1 : EReal) else 0 := by
  have hiff := StableHlo.Predicate.sge_iff_toNat (a := BitVec.ofNat 32 r.val) (b := BitVec.ofNat 32 c.val)
    (by rw [toNat_coord]; omega) (by rw [toNat_coord]; omega)
  rw [toNat_coord, toNat_coord] at hiff
  show Scalar.select (IntOp.cmpi .sge (BitVec.ofNat 32 r.val + 0#32) (BitVec.ofNat 32 c.val))
      (Ideal.ofBits .f32 0x3F800000#32) (Ideal.ofBits .f32 0x00000000#32) = _
  rw [BitVec.add_zero, Ideal.ofBits_one_f32, Ideal.ofBits_zero_f32]
  exact if_congr hiff rfl rfl

theorem masked_at (r c : Fin 8192) :
    val_main_v21 x0 x1 x3 x4 x5 x6 (ix2 r c) = smS x0 x1 x3 x4 x5 x6 r c := by
  rw [val_main_v21_apply, val_main_v18_apply, val_main_v17_apply, val_main_cst_apply, score_at, mask_at]
  rfl

theorem ofBits_neg_inf : Ideal.ofBits .f32 0xFF800000#32 = ⊥ := by
  simp [Ideal.ofBits, Ideal.ieee]

theorem lift_row (h : S8192x8192.Reduces [0] S8192) (c k : Fin 8192) : h.lift (ix1 c) k = ix2 k c :=
  funext fun a => Fin.ext (by match a with | ⟨0, _⟩ => rfl | ⟨1, _⟩ => rfl)

/-- A fold of the binary maximum from −∞ over a column is its supremum. -/
theorem colmax_at (c : Fin 8192) :
    val_main_v24 x0 x1 x3 x4 x5 x6 (ix1 c) = Cert.Spec.colMax (smS x0 x1 x3 x4 x5 x6) c := by
  have h : S8192x8192.Reduces [0] S8192 := by decide
  have hf : (val_main_v21 x0 x1 x3 x4 x5 x6 ∘ h.lift (ix1 c))
      = fun k : Fin 8192 => smS x0 x1 x3 x4 x5 x6 k c :=
    funext fun k => (congrArg _ (lift_row h c k)).trans (masked_at x0 x1 x3 x4 x5 x6 k c)
  rw [val_main_v24_apply, val_main_v23_apply, val_main_cst_2_apply]
  unfold val_main_v22
  rw [Host.reduce_eq_fold_single FloatOps.maximumf _ _ reducesTo_S8192x8192_S8192_d0 h h_S_, hf]
  show max (Ideal.ofBits .f32 0xFF800000#32) (Finset.univ.fold max (Ideal.ofBits .f32 0xFF800000#32) _) = _
  rw [ofBits_neg_inf, max_bot_left]
  rfl

theorem exp_at (r c : Fin 8192) :
    val_main_v28 x0 x1 x3 x4 x5 x6 (ix2 r c)
      = Ideal.exp (smS x0 x1 x3 x4 x5 x6 r c - Cert.Spec.colMax (smS x0 x1 x3 x4 x5 x6) c) := by
  rw [val_main_v28_apply, val_main_v27_apply, val_main_v26_apply, val_main_v25_apply, masked_at,
    show idx_main_v25 (idx_main_v26 (ix2 r c)) = ix1 c from eq_ix1 _, colmax_at]
  rfl

theorem colsum_at (c : Fin 8192) :
    val_main_v29 x0 x1 x3 x4 x5 x6 (ix1 c) = Cert.Spec.colSum (smS x0 x1 x3 x4 x5 x6) c := by
  rw [val_main_v29_apply, val_main_cst_3_apply]
  show Ideal.ofBits .f32 0x00000000#32 + _ = _
  rw [Ideal.ofBits_zero_f32, zero_add]
  exact Finset.sum_congr rfl fun k _ => (congrArg _ (eq_ix2 _)).trans (exp_at x0 x1 x3 x4 x5 x6 k c)

theorem weight_at (r c : Fin 8192) :
    val_main_v32 x0 x1 x3 x4 x5 x6 (ix2 r c)
      = Ideal.div (Ideal.exp (smS x0 x1 x3 x4 x5 x6 r c - Cert.Spec.colMax (smS x0 x1 x3 x4 x5 x6) c))
          (Cert.Spec.colSum (smS x0 x1 x3 x4 x5 x6) c) := by
  rw [val_main_v32_apply, val_main_v31_apply, val_main_v30_apply, exp_at,
    show idx_main_v30 (idx_main_v31 (ix2 r c)) = ix1 c from eq_ix1 _, colsum_at]
  rfl

theorem ref_out (r : Fin 8192) (d : Fin 512) :
    val_main_v33 (F := Ideal) x0 x1 x2 x3 x4 x5 x6 x7 x8 (ix2 r d)
      = Cert.Spec.referenceOut (fun r k => x0 (ix2 r k)) (fun r k => x1 (ix2 r k)) (fun r k => x2 (ix2 r k))
          (fun e k => x3 (ix2 e k)) (fun e k => x5 (ix2 e k)) (fun e k => x7 (ix2 e k))
          (fun e => x4 (ix1 e)) (fun e => x6 (ix1 e)) (fun e => x8 (ix1 e)) (Ideal.ofBits .f32 0x41B504F3#32) r d := by
  rw [val_main_v33_apply]
  simp only [show ∀ k, lidx_main_v33 (ix2 r d) k = ix2 r k from fun _ => eq_ix2 _,
    show ∀ k, ridx_main_v33 (ix2 r d) k = ix2 k d from fun _ => eq_ix2 _, weight_at, vp_eq, qp_at]
  rfl

end Cert.RefLeg

end
-- ==== Proof.Finite.lean ====
import proofs.«404408_j69475390980772_3_alg».proof.Defs
import proofs.«404408_j69475390980772_3_alg».proof.Proof.Gen.Pre_finite_inputs
import Idealize.ShloMosaic.Lib.ReduceAll
import Idealize.ShloMosaic.Lib.ValueIdx
import Mathlib.Data.EReal.Basic

noncomputable section

namespace Cert.Finite

open Idealize.ShloMosaic Idealize.SL.Sem

instance : Subsingleton (⟨0, ![]⟩ : Shape).Idx := ⟨fun a b => funext fun d => d.elim0⟩

/-- |x| = max x (-x), and max x (-x) < ⊤ excludes both x = ⊤ and x = ⊥: what is left is the real line. -/
theorem real_of_all {s : Shape} {axes : List (Fin s.rank)}
    {hb} {hr : s.ReducesTo axes ⟨0, ![]⟩} {hu} {x : FVec Ideal s .f32} {init : IVec ⟨0, ![]⟩ 1}
    (e : Host.reduce IntOp.andi
        (cmpf .olt (Host.absf x) (broadcastInDim s ![] hb (constant (F := Ideal) ⟨0, ![]⟩ .f32 0x7F800000#32)))
        init hr hu ValueIdx.ix0 = 1#1)
    (i : s.Idx) : ∃ y : ℝ, x i = (y : EReal) := by
  have h : Ideal.cmp .olt (max (x i) (-x i)) (Ideal.ofBits .f32 0x7F800000#32) = 1#1 :=
    Host.reduce_andi_all _ init hr hu ValueIdx.ix0 e i
  rw [show Ideal.ofBits .f32 0x7F800000#32 = ⊤ by simp [Ideal.ofBits, Ideal.ieee]] at h
  generalize x i = z at h ⊢
  induction z using EReal.rec with
  | bot => simp [Ideal.cmp] at h
  | coe r => exact ⟨r, rfl⟩
  | top => simp [Ideal.cmp] at h

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ y : ℝ, m ((c.tc : Thread Cert.KernelIdeal.nD Cert.KernelIdeal.τ).loc Cert.KernelIdeal.main_arg0) i = (y : EReal))
    ∧ (∀ i, ∃ y : ℝ, m ((c.tc : Thread Cert.KernelIdeal.nD Cert.KernelIdeal.τ).loc Cert.KernelIdeal.main_arg1) i = (y : EReal))
    ∧ (∀ i, ∃ y : ℝ, m ((c.tc : Thread Cert.KernelIdeal.nD Cert.KernelIdeal.τ).loc Cert.KernelIdeal.main_arg2) i = (y : EReal))
    ∧ (∀ i, ∃ y : ℝ, m ((c.tc : Thread Cert.KernelIdeal.nD Cert.KernelIdeal.τ).loc Cert.KernelIdeal.main_arg3) i = (y : EReal))
    ∧ (∀ i, ∃ y : ℝ, m ((c.tc : Thread Cert.KernelIdeal.nD Cert.KernelIdeal.τ).loc Cert.KernelIdeal.main_arg4) i = (y : EReal))
    ∧ (∀ i, ∃ y : ℝ, m ((c.tc : Thread Cert.KernelIdeal.nD Cert.KernelIdeal.τ).loc Cert.KernelIdeal.main_arg5) i = (y : EReal))
    ∧ (∀ i, ∃ y : ℝ, m ((c.tc : Thread Cert.KernelIdeal.nD Cert.KernelIdeal.τ).loc Cert.KernelIdeal.main_arg6) i = (y : EReal))
    ∧ (∀ i, ∃ y : ℝ, m ((c.tc : Thread Cert.KernelIdeal.nD Cert.KernelIdeal.τ).loc Cert.KernelIdeal.main_arg7) i = (y : EReal))
    ∧ (∀ i, ∃ y : ℝ, m ((c.tc : Thread Cert.KernelIdeal.nD Cert.KernelIdeal.τ).loc Cert.KernelIdeal.main_arg8) i = (y : EReal)) := by
  have h0 := congrFun (h c) ValueIdx.ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all e0, real_of_all e1, real_of_all e2, real_of_all e3, real_of_all e4, real_of_all e5,
    real_of_all e6, real_of_all e7, real_of_all e8⟩

end Cert.Finite

end
-- ==== Proof.Consts.lean ====
import proofs.«404408_j69475390980772_3_alg».proof.KernelIdeal
import Idealize.ShloMosaic.PureOps.IdealRules
import Idealize.ShloMosaic.PureOps.Ideal
import Idealize.ShloMosaic.Lib.IdealHost

noncomputable section

namespace Cert.Consts

open Idealize.ShloMosaic

def D : ℝ := 11863283 / 524288

theorem D_pos : 0 < D := by
  norm_num [D]

/-- The named scale's value 524288/11863283 is 1/D. -/
theorem inv_scale : Named.named (F := Ideal) Cert.KernelIdeal.κ "inv_scale" (φ := .f32) 0x3D3504F3#32 = (((1 / D : ℝ)) : EReal) := by
  rw [show (1 / D : ℝ) = 524288 / 11863283 by norm_num [D]]
  exact IdealRules.named_const.ideal_named_scalar _ _ _ _ rfl

/-- Sign 0, exponent field 131, mantissa field 0x3504F3: (2^23 + 0x3504F3)·2^(131 - 127 - 23) = D. -/
theorem ofBits_D : Ideal.ofBits .f32 0x41B504F3#32 = ((D : ℝ) : EReal) := by
  simp [Ideal.ofBits, Ideal.ieee, D, -EReal.coe_mul]
  norm_num

theorem ofBits_one : (Scalar.ofBits .f32 0x3F800000#32 : Ideal .f32) = ((1 : ℝ) : EReal) :=
  Ideal.ofBits_one_f32

theorem preserves : IdealRules.named_const.Statement Cert.KernelIdeal.κ "inv_scale" .f32 0x3D3504F3#32 ((524288 / 11863283 : ℝ) : EReal) :=
  IdealRules.named_const.statement _ _ _ _ _ rfl

end Cert.Consts

end
-- ==== Proof.Assemble.lean ====
import proofs.«404408_j69475390980772_3_alg».proof.Defs
import proofs.«404408_j69475390980772_3_alg».proof.Proof.Gen.KernelIdeal
import proofs.«404408_j69475390980772_3_alg».proof.Proof.Gen.ReferenceIdeal
import proofs.«404408_j69475390980772_3_alg».proof.Proof.Gen.Pre_finite_inputs
import proofs.«404408_j69475390980772_3_alg».proof.Proof.Gen.ReferenceIdeal.Run
import proofs.«404408_j69475390980772_3_alg».proof.Proof.Gen.ReferenceIdeal.Read
import proofs.«404408_j69475390980772_3_alg».proof.Proof.KI.Run
import proofs.«404408_j69475390980772_3_alg».proof.Proof.KI.Chain
import proofs.«404408_j69475390980772_3_alg».proof.Proof.Ref
import proofs.«404408_j69475390980772_3_alg».proof.Proof.Algebra
import proofs.«404408_j69475390980772_3_alg».proof.Proof.Finite
import proofs.«404408_j69475390980772_3_alg».proof.Proof.Consts
import Idealize.ShloMosaic.Lib.ValueIdx
import Mathlib.Data.EReal.Basic

noncomputable section

namespace Cert.Proof.Parts

open Idealize.ShloMosaic Idealize.ShloMosaic.TcCoe Idealize.SL.Sem ValueIdx

theorem frame_pi : Cert.frame_KernelIdeal := fun m ρ _ =>
  (θ_run Cert.KernelIdeal.defs _ _).mono (fun _ h c => (h c).2) (Cert.KernelIdeal.Hand.run_out (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := Cert.Consts.preserves

theorem W9_eq_referenceOut [hP : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD)
    (r : Fin 8192) (d : Fin 512) :
    (Cert.KernelIdeal.Hand.W9 m ρ c (Proc.devRef .tc Cert.KernelIdeal.main_v14) : Cert.KernelIdeal.S8192x512.Idx → EReal) (ix2 r d)
      = Cert.Spec.referenceOut (Cert.KernelIdeal.Hand.qIn m c) (Cert.KernelIdeal.Hand.kIn m c) (Cert.KernelIdeal.Hand.vIn m c)
          (Cert.KernelIdeal.Hand.wqIn m c) (Cert.KernelIdeal.Hand.wkIn m c) (Cert.KernelIdeal.Hand.wvIn m c)
          (Cert.KernelIdeal.Hand.bqIn m c) (Cert.KernelIdeal.Hand.bkIn m c) (Cert.KernelIdeal.Hand.bvIn m c)
          ((Cert.Consts.D : ℝ) : EReal) r d := by
  obtain ⟨f0, f1, f2, f3, f4, f5, f6, f7, f8⟩ := Cert.Finite.real_of_pre m hpre c
  have hq : ∀ r k, ∃ y : ℝ, Cert.KernelIdeal.Hand.qIn m c r k = (y : EReal) := fun r k => f0 (ix2 r k)
  have hk : ∀ r k, ∃ y : ℝ, Cert.KernelIdeal.Hand.kIn m c r k = (y : EReal) := fun r k => f1 (ix2 r k)
  have hv : ∀ r k, ∃ y : ℝ, Cert.KernelIdeal.Hand.vIn m c r k = (y : EReal) := fun r k => f2 (ix2 r k)
  have hwq : ∀ e k, ∃ y : ℝ, Cert.KernelIdeal.Hand.wqIn m c e k = (y : EReal) := fun e k => f3 (ix2 e k)
  have hbq : ∀ e, ∃ y : ℝ, Cert.KernelIdeal.Hand.bqIn m c e = (y : EReal) := fun e => f4 (ix1 e)
  have hwk : ∀ e k, ∃ y : ℝ, Cert.KernelIdeal.Hand.wkIn m c e k = (y : EReal) := fun e k => f5 (ix2 e k)
  have hbk : ∀ e, ∃ y : ℝ, Cert.KernelIdeal.Hand.bkIn m c e = (y : EReal) := fun e => f6 (ix1 e)
  have hwv : ∀ e k, ∃ y : ℝ, Cert.KernelIdeal.Hand.wvIn m c e k = (y : EReal) := fun e k => f7 (ix2 e k)
  have hbv : ∀ e, ∃ y : ℝ, Cert.KernelIdeal.Hand.bvIn m c e = (y : EReal) := fun e => f8 (ix1 e)
  refine (Cert.KernelIdeal.Hand.W9_out m ρ c hq hk hv hwq hwk hwv hbq hbk hbv (1 / Cert.Consts.D) 1
    Cert.Consts.inv_scale Cert.Consts.ofBits_one Cert.Consts.ofBits_one r d).trans ?_
  rw [EReal.coe_one]
  exact congrFun (congrFun (Cert.Algebra.kernelOut_eq_referenceOut _ _ _ _ _ _ _ _ _ hq hk hv hwq hwk hwv hbq hbk hbv
    Cert.Consts.D Cert.Consts.D_pos) r) d

theorem algebraic : Cert.algebraic_KernelIdeal_ReferenceIdeal := by
  intro m ρ m' ρ' hpre hagree
  refine ⟨fun c => Cert.KernelIdeal.Hand.W9 m ρ c (Proc.devRef .tc Cert.KernelIdeal.main_v14), Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  obtain ⟨a0, a1, a2, a3, a4, a5, a6, a7, a8⟩ := hagree c
  rw [a0, a1, a2, a3, a4, a5, a6, a7, a8]
  funext i
  obtain ⟨r, d, rfl⟩ : ∃ (r : Fin 8192) (d : Fin 512), i = ix2 r d := ⟨i 0, i 1, eq_ix2 i⟩
  refine (Cert.RefLeg.ref_out _ _ _ _ _ _ _ _ _ r d).trans ?_
  rw [Cert.Consts.ofBits_D]
  exact (W9_eq_referenceOut m ρ hpre c r d).symm

end Cert.Proof.Parts

end
-- ==== Proof.lean ====
import proofs.«404408_j69475390980772_3_alg».proof.Defs
import proofs.«404408_j69475390980772_3_alg».proof.Proof.Gen.Kernel
import proofs.«404408_j69475390980772_3_alg».proof.Proof.Gen.KernelIdeal
import proofs.«404408_j69475390980772_3_alg».proof.Proof.Gen.ReferenceIdeal
import proofs.«404408_j69475390980772_3_alg».proof.Proof.Gen.Pre_finite_inputs
import proofs.«404408_j69475390980772_3_alg».proof.Proof.KB.Run
import proofs.«404408_j69475390980772_3_alg».proof.Proof.Assemble

noncomputable section

namespace Cert.Proof

open Idealize.ShloMosaic Idealize.SL.Sem

theorem frame_p : Cert.frame_Kernel :=
  fun m ρ _ => (θ_run Cert.Kernel.defs _ _).mono (fun _ h c => (h c).2) (Cert.Kernel.Hand.run_out (F := Bits) m ρ)

theorem claim : Cert.Claim :=
  ⟨Cert.Kernel.Gen.facts, Cert.KernelIdeal.Gen.facts, Cert.ReferenceIdeal.Gen.facts, Cert.Pre_finite_inputs.Gen.facts,
    frame_p, Cert.Proof.Parts.frame_pi, Cert.Proof.Parts.frame_ri, Cert.Proof.Parts.preserves, Cert.Proof.Parts.algebraic⟩

end Cert.Proof

end
